-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v101)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v101) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v127) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S800000 : Shape := ⟨1, ![800000]⟩
abbrev S50000 : Shape := ⟨1, ![50000]⟩
abbrev S384x128 : Shape := ⟨2, ![384, 128]⟩
abbrev S128 : Shape := ⟨1, ![128]⟩
abbrev S128x10 : Shape := ⟨2, ![128, 10]⟩
abbrev S10 : Shape := ⟨1, ![10]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S384x128 : S_.BroadcastsInDim S384x128 (![] : Fin 0 → Fin S384x128.rank)
  reducesTo_S384x128_S_d0_1 : S384x128.ReducesTo [0, 1] S_
  bcast_S_S128 : S_.BroadcastsInDim S128 (![] : Fin 0 → Fin S128.rank)
  reducesTo_S128_S_d0 : S128.ReducesTo [0] S_
  bcast_S_S128x10 : S_.BroadcastsInDim S128x10 (![] : Fin 0 → Fin S128x10.rank)
  reducesTo_S128x10_S_d0_1 : S128x10.ReducesTo [0, 1] S_
  bcast_S_S10 : S_.BroadcastsInDim S10 (![] : Fin 0 → Fin S10.rank)
  reducesTo_S10_S_d0 : S10.ReducesTo [0] S_

variable [Facts]

def fn_part2 {F : FTy → Type} [FloatOps F] (main_arg10 : FVec F S128x10 .f32) (main_arg11 : FVec F S10 .f32) (main_v33 : IVec S_ 1) : IVec S_ 1 :=
  let main_v34 : FVec F S128x10 .f32 := Host.absf main_arg10
  let main_cst_12 : FVec F S_ .f32 := constant S_ .f32 0x7F800000#32
  let main_v35 : FVec F S128x10 .f32 := broadcastInDim S128x10 ![] bcast_S_S128x10 main_cst_12
  let main_v36 : IVec S128x10 1 := cmpf .olt main_v34 main_v35
  let main_c_13 : IVec S_ 1 := constantI S_ 1 1#1
  let main_v37 : IVec S_ 1 := (fun x v => Host.reduce IntOp.andi x v reducesTo_S128x10_S_d0_1 h_S_) main_v36 main_c_13
  let main_v38 : IVec S_ 1 := andi main_v33 main_v37
  let main_v39 : FVec F S10 .f32 := Host.absf main_arg11
  let main_cst_14 : FVec F S_ .f32 := constant S_ .f32 0x7F800000#32
  let main_v40 : FVec F S10 .f32 := broadcastInDim S10 ![] bcast_S_S10 main_cst_14
  let main_v41 : IVec S10 1 := cmpf .olt main_v39 main_v40
  let main_c_15 : IVec S_ 1 := constantI S_ 1 1#1
  let main_v42 : IVec S_ 1 := (fun x v => Host.reduce IntOp.andi x v reducesTo_S10_S_d0 h_S_) main_v41 main_c_15
  let main_v43 : IVec S_ 1 := andi main_v38 main_v42
  main_v43

def fn_part1 {F : FTy → Type} [FloatOps F] (main_arg7 : FVec F S128 .f32) (main_arg8 : FVec F S384x128 .f32) (main_arg9 : FVec F S128 .f32) (main_arg10 : FVec F S128x10 .f32) (main_arg11 : FVec F S10 .f32) (main_v13 : IVec S_ 1) (main_v16 : IVec S384x128 1) : IVec S_ 1 :=
  let main_c_5 : IVec S_ 1 := constantI S_ 1 1#1
  let main_v17 : IVec S_ 1 := (fun x v => Host.reduce IntOp.andi x v reducesTo_S384x128_S_d0_1 h_S_) main_v16 main_c_5
  let main_v18 : IVec S_ 1 := andi main_v13 main_v17
  let main_v19 : FVec F S128 .f32 := Host.absf main_arg7
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S384x128 .f32 := Host.absf main_arg8
  let main_cst_8 : FVec F S_ .f32 := constant S_ .f32 0x7F800000#32
  let main_v25 : FVec F S384x128 .f32 := broadcastInDim S384x128 ![] bcast_S_S384x128 main_cst_8
  let main_v26 : IVec S384x128 1 := cmpf .olt main_v24 main_v25
  let main_c_9 : IVec S_ 1 := constantI S_ 1 1#1
  let main_v27 : IVec S_ 1 := (fun x v => Host.reduce IntOp.andi x v reducesTo_S384x128_S_d0_1 h_S_) main_v26 main_c_9
  let main_v28 : IVec S_ 1 := andi main_v23 main_v27
  let main_v29 : FVec F S128 .f32 := Host.absf main_arg9
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg10 main_arg11 main_v33

def fn {F : FTy → Type} [FloatOps F] (main_arg0 : FVec F S50000x128 .f32) (main_arg1 : IVec S800000 32) (main_arg2 : IVec S800000 32) (main_arg3 : IVec S50000 32) (main_arg4 : FVec F S384x128 .f32) (main_arg5 : FVec F S128 .f32) (main_arg6 : FVec F S384x128 .f32) (main_arg7 : FVec F S128 .f32) (main_arg8 : FVec F S384x128 .f32) (main_arg9 : FVec F S128 .f32) (main_arg10 : FVec F S128x10 .f32) (main_arg11 : FVec F S10 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S384x128 .f32 := Host.absf main_arg4
  let main_cst_0 : FVec F S_ .f32 := constant S_ .f32 0x7F800000#32
  let main_v5 : FVec F S384x128 .f32 := broadcastInDim S384x128 ![] bcast_S_S384x128 main_cst_0
  let main_v6 : IVec S384x128 1 := cmpf .olt main_v4 main_v5
  let main_c_1 : IVec S_ 1 := constantI S_ 1 1#1
  let main_v7 : IVec S_ 1 := (fun x v => Host.reduce IntOp.andi x v reducesTo_S384x128_S_d0_1 h_S_) main_v6 main_c_1
  let main_v8 : IVec S_ 1 := andi main_v3 main_v7
  let main_v9 : FVec F S128 .f32 := Host.absf main_arg5
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S384x128 .f32 := Host.absf main_arg6
  let main_cst_4 : FVec F S_ .f32 := constant S_ .f32 0x7F800000#32
  let main_v15 : FVec F S384x128 .f32 := broadcastInDim S384x128 ![] bcast_S_S384x128 main_cst_4
  let main_v16 : IVec S384x128 1 := cmpf .olt main_v14 main_v15
  fn_part1 (F := F) main_arg7 main_arg8 main_arg9 main_arg10 main_arg11 main_v13 main_v16
-- ==== Kernel.lean ====
abbrev S50000x128 : Shape := ⟨2, ![50000, 128]⟩
abbrev S800000 : Shape := ⟨1, ![800000]⟩
abbrev S50000 : Shape := ⟨1, ![50000]⟩
abbrev S384x128 : Shape := ⟨2, ![384, 128]⟩
abbrev S128 : Shape := ⟨1, ![128]⟩
abbrev S128x10 : Shape := ⟨2, ![128, 10]⟩
abbrev S10 : Shape := ⟨1, ![10]⟩
abbrev S_ : Shape := ⟨0, ![]⟩
abbrev S800000x1 : Shape := ⟨2, ![800000, 1]⟩
abbrev S50000x1 : Shape := ⟨2, ![50000, 1]⟩
abbrev S800000x128 : Shape := ⟨2, ![800000, 128]⟩
abbrev S50000x384 : Shape := ⟨2, ![50000, 384]⟩
abbrev S5000x384 : Shape := ⟨2, ![5000, 384]⟩
abbrev S5000x128 : Shape := ⟨2, ![5000, 128]⟩
abbrev S1x128 : Shape := ⟨2, ![1, 128]⟩
abbrev S5000x1 : Shape := ⟨2, ![5000, 1]⟩
abbrev S128x128 : Shape := ⟨2, ![128, 128]⟩
abbrev S128x1 : Shape := ⟨2, ![128, 1]⟩
abbrev S1x10 : Shape := ⟨2, ![1, 10]⟩

abbrev nBuf : Space → Nat
  | .hbm => 139
  | .vmem => 27
  | .smem => 0
  | _ => 0

abbrev hbmTy0_0 (i : Nat) : BufTy := match i % 128 with
  | 0 => ⟨S50000x128, .f32⟩
  | 1 => ⟨S800000, .i32⟩
  | 2 => ⟨S800000, .i32⟩
  | 3 => ⟨S50000, .i32⟩
  | 4 => ⟨S384x128, .f32⟩
  | 5 => ⟨S128, .f32⟩
  | 6 => ⟨S384x128, .f32⟩
  | 7 => ⟨S128, .f32⟩
  | 8 => ⟨S384x128, .f32⟩
  | 9 => ⟨S128, .f32⟩
  | 10 => ⟨S128x10, .f32⟩
  | 11 => ⟨S10, .f32⟩
  | 12 => ⟨S_, .f32⟩
  | 13 => ⟨S800000, .f32⟩
  | 14 => ⟨S_, .f32⟩
  | 15 => ⟨S50000, .f32⟩
  | 16 => ⟨S800000x1, .i32⟩
  | 17 => ⟨S50000, .f32⟩
  | 18 => ⟨S_, .f32⟩
  | 19 => ⟨S50000, .f32⟩
  | 20 => ⟨S50000, .i1⟩
  | 21 => ⟨S_, .f32⟩
  | 22 => ⟨S_, .f32⟩
  | 23 => ⟨S50000, .f32⟩
  | 24 => ⟨S50000, .f32⟩
  | 25 => ⟨S_, .f32⟩
  | 26 => ⟨S50000, .f32⟩
  | 27 => ⟨S50000, .f32⟩
  | 28 => ⟨S50000x1, .f32⟩
  | 29 => ⟨S50000x128, .f32⟩
  | 30 => ⟨S50000x128, .f32⟩
  | 31 => ⟨S_, .i32⟩
  | 32 => ⟨S800000, .i32⟩
  | 33 => ⟨S800000, .i1⟩
  | 34 => ⟨S_, .i32⟩
  | 35 => ⟨S800000, .i32⟩
  | 36 => ⟨S800000, .i32⟩
  | 37 => ⟨S800000, .i32⟩
  | 38 => ⟨S800000x1, .i32⟩
  | 39 => ⟨S800000x128, .f32⟩
  | 40 => ⟨S_, .f32⟩
  | 41 => ⟨S50000x128, .f32⟩
  | 42 => ⟨S800000x1, .i32⟩
  | 43 => ⟨S50000x128, .f32⟩
  | 44 => ⟨S50000x128, .f32⟩
  | 45 => ⟨S50000x128, .f32⟩
  | 46 => ⟨S50000x128, .f32⟩
  | 47 => ⟨S50000x128, .f32⟩
  | 48 => ⟨S_, .i32⟩
  | 49 => ⟨S800000, .i32⟩
  | 50 => ⟨S800000, .i1⟩
  | 51 => ⟨S_, .i32⟩
  | 52 => ⟨S800000, .i32⟩
  | 53 => ⟨S800000, .i32⟩
  | 54 => ⟨S800000, .i32⟩
  | 55 => ⟨S800000x1, .i32⟩
  | 56 => ⟨S800000x128, .f32⟩
  | 57 => ⟨S_, .f32⟩
  | 58 => ⟨S50000x128, .f32⟩
  | 59 => ⟨S800000x1, .i32⟩
  | 60 => ⟨S50000x128, .f32⟩
  | 61 => ⟨S50000x128, .f32⟩
  | 62 => ⟨S50000x128, .f32⟩
  | 63 => ⟨S50000x384, .f32⟩
  | 64 => ⟨S50000x128, .f32⟩
  | 65 => ⟨S50000x128, .f32⟩
  | 66 => ⟨S50000x128, .f32⟩
  | 67 => ⟨S_, .i32⟩
  | 68 => ⟨S800000, .i32⟩
  | 69 => ⟨S800000, .i1⟩
  | 70 => ⟨S_, .i32⟩
  | 71 => ⟨S800000, .i32⟩
  | 72 => ⟨S800000, .i32⟩
  | 73 => ⟨S800000, .i32⟩
  | 74 => ⟨S800000x1, .i32⟩
  | 75 => ⟨S800000x128, .f32⟩
  | 76 => ⟨S_, .f32⟩
  | 77 => ⟨S50000x128, .f32⟩
  | 78 => ⟨S800000x1, .i32⟩
  | 79 => ⟨S50000x128, .f32⟩
  | 80 => ⟨S50000x128, .f32⟩
  | 81 => ⟨S50000x128, .f32⟩
  | 82 => ⟨S50000x128, .f32⟩
  | 83 => ⟨S50000x128, .f32⟩
  | 84 => ⟨S_, .i32⟩
  | 85 => ⟨S800000, .i32⟩
  | 86 => ⟨S800000, .i1⟩
  | 87 => ⟨S_, .i32⟩
  | 88 => ⟨S800000, .i32⟩
  | 89 => ⟨S800000, .i32⟩
  | 90 => ⟨S800000, .i32⟩
  | 91 => ⟨S800000x1, .i32⟩
  | 92 => ⟨S800000x128, .f32⟩
  | 93 => ⟨S_, .f32⟩
  | 94 => ⟨S50000x128, .f32⟩
  | 95 => ⟨S800000x1, .i32⟩
  | 96 => ⟨S50000x128, .f32⟩
  | 97 => ⟨S50000x128, .f32⟩
  | 98 => ⟨S50000x128, .f32⟩
  | 99 => ⟨S50000x384, .f32⟩
  | 100 => ⟨S50000x128, .f32⟩
  | 101 => ⟨S50000x128, .f32⟩
  | 102 => ⟨S50000x128, .f32⟩
  | 103 => ⟨S_, .i32⟩
  | 104 => ⟨S800000, .i32⟩
  | 105 => ⟨S800000, .i1⟩
  | 106 => ⟨S_, .i32⟩
  | 107 => ⟨S800000, .i32⟩
  | 108 => ⟨S800000, .i32⟩
  | 109 => ⟨S800000, .i32⟩
  | 110 => ⟨S800000x1, .i32⟩
  | 111 => ⟨S800000x128, .f32⟩
  | 112 => ⟨S_, .f32⟩
  | 113 => ⟨S50000x128, .f32⟩
  | 114 => ⟨S800000x1, .i32⟩
  | 115 => ⟨S50000x128, .f32⟩
  | 116 => ⟨S50000x128, .f32⟩
  | 117 => ⟨S50000x128, .f32⟩
  | 118 => ⟨S50000x128, .f32⟩
  | 119 => ⟨S50000x128, .f32⟩
  | 120 => ⟨S_, .i32⟩
  | 121 => ⟨S800000, .i32⟩
  | 122 => ⟨S800000, .i1⟩
  | 123 => ⟨S_, .i32⟩
  | 124 => ⟨S800000, .i32⟩
  | 125 => ⟨S800000, .i32⟩
  | 126 => ⟨S800000, .i32⟩
  | 127 => ⟨S800000x1, .i32⟩
  | _ => ⟨S50000x128, .f32⟩

abbrev hbmTy0_1 (i : Nat) : BufTy := match i % 128 with
  | 0 => ⟨S800000x128, .f32⟩
  | 1 => ⟨S_, .f32⟩
  | 2 => ⟨S50000x128, .f32⟩
  | 3 => ⟨S800000x1, .i32⟩
  | 4 => ⟨S50000x128, .f32⟩
  | 5 => ⟨S50000x128, .f32⟩
  | 6 => ⟨S50000x128, .f32⟩
  | 7 => ⟨S50000x384, .f32⟩
  | 8 => ⟨S50000x128, .f32⟩
  | 9 => ⟨S50000x1, .i32⟩
  | 10 => ⟨S128x10, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | .local _ .vmem, ⟨0, _⟩ => ⟨S5000x384, .f32⟩
  | .local _ .vmem, ⟨1, _⟩ => ⟨S5000x384, .f32⟩
  | .local _ .vmem, ⟨2, _⟩ => ⟨S384x128, .f32⟩
  | .local _ .vmem, ⟨3, _⟩ => ⟨S128, .f32⟩
  | .local _ .vmem, ⟨4, _⟩ => ⟨S5000x128, .f32⟩
  | .local _ .vmem, ⟨5, _⟩ => ⟨S5000x128, .f32⟩
  | .local _ .vmem, ⟨6, _⟩ => ⟨S5000x384, .f32⟩
  | .local _ .vmem, ⟨7, _⟩ => ⟨S5000x384, .f32⟩
  | .local _ .vmem, ⟨8, _⟩ => ⟨S384x128, .f32⟩
  | .local _ .vmem, ⟨9, _⟩ => ⟨S128, .f32⟩
  | .local _ .vmem, ⟨10, _⟩ => ⟨S5000x128, .f32⟩
  | .local _ .vmem, ⟨11, _⟩ => ⟨S5000x128, .f32⟩
  | .local _ .vmem, ⟨12, _⟩ => ⟨S5000x384, .f32⟩
  | .local _ .vmem, ⟨13, _⟩ => ⟨S5000x384, .f32⟩
  | .local _ .vmem, ⟨14, _⟩ => ⟨S384x128, .f32⟩
  | .local _ .vmem, ⟨15, _⟩ => ⟨S128, .f32⟩
  | .local _ .vmem, ⟨16, _⟩ => ⟨S5000x128, .f32⟩
  | .local _ .vmem, ⟨17, _⟩ => ⟨S5000x128, .f32⟩
  | .local _ .vmem, ⟨18, _⟩ => ⟨S5000x128, .f32⟩
  | .local _ .vmem, ⟨19, _⟩ => ⟨S5000x128, .f32⟩
  | .local _ .vmem, ⟨20, _⟩ => ⟨S5000x1, .i32⟩
  | .local _ .vmem, ⟨21, _⟩ => ⟨S5000x1, .i32⟩
  | .local _ .vmem, ⟨22, _⟩ => ⟨S128x10, .f32⟩
  | .local _ .vmem, ⟨23, _⟩ => ⟨S10, .f32⟩
  | .local _ .vmem, ⟨24, _⟩ => ⟨S128x10, .f32⟩
  | .local _ .vmem, ⟨25, _⟩ => ⟨S128x128, .f32⟩
  | .local _ .vmem, ⟨26, _⟩ => ⟨S128x1, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_cst : Ref sig .tc := ⟨.hbm, 12, rfl⟩
abbrev main_v0 : Ref sig .tc := ⟨.hbm, 13, rfl⟩
abbrev main_cst_0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_cst_1 : Ref sig .tc := ⟨.hbm, 18, rfl⟩
abbrev main_v4 : Ref sig .tc := ⟨.hbm, 19, rfl⟩
abbrev main_v5 : Ref sig .tc := ⟨.hbm, 20, rfl⟩
abbrev main_cst_2 : Ref sig .tc := ⟨.hbm, 21, rfl⟩
abbrev main_call0_v0 : Ref sig .tc := ⟨.hbm, 22, rfl⟩
abbrev main_call0_v1 : Ref sig .tc := ⟨.hbm, 23, rfl⟩
abbrev main_v6 : Ref sig .tc := ⟨.hbm, 24, rfl⟩
abbrev main_cst_3 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_c : Ref sig .tc := ⟨.hbm, 31, rfl⟩
abbrev main_v12 : Ref sig .tc := ⟨.hbm, 32, rfl⟩
abbrev main_v13 : Ref sig .tc := ⟨.hbm, 33, rfl⟩
abbrev main_c_4 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_cst_5 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_c_6 : Ref sig .tc := ⟨.hbm, 48, rfl⟩
abbrev main_v26 : Ref sig .tc := ⟨.hbm, 49, rfl⟩
abbrev main_v27 : Ref sig .tc := ⟨.hbm, 50, rfl⟩
abbrev main_c_7 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_cst_8 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_c_9 : Ref sig .tc := ⟨.hbm, 67, rfl⟩
abbrev main_v42 : Ref sig .tc := ⟨.hbm, 68, rfl⟩
abbrev main_v43 : Ref sig .tc := ⟨.hbm, 69, rfl⟩
abbrev main_c_10 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_cst_11 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_c_12 : Ref sig .tc := ⟨.hbm, 84, rfl⟩
abbrev main_v56 : Ref sig .tc := ⟨.hbm, 85, rfl⟩
abbrev main_v57 : Ref sig .tc := ⟨.hbm, 86, rfl⟩
abbrev main_c_13 : Ref sig .tc := ⟨.hbm, 87, rfl⟩
abbrev main_v58 : Ref sig .tc := ⟨.hbm, 88, rfl⟩
abbrev main_v59 : Ref sig .tc := ⟨.hbm, 89, rfl⟩
abbrev main_v60 : Ref sig .tc := ⟨.hbm, 90, rfl⟩
abbrev main_v61 : Ref sig .tc := ⟨.hbm, 91, rfl⟩
abbrev main_v62 : Ref sig .tc := ⟨.hbm, 92, rfl⟩
abbrev main_cst_14 : Ref sig .tc := ⟨.hbm, 93, rfl⟩
abbrev main_v63 : Ref sig .tc := ⟨.hbm, 94, rfl⟩
abbrev main_v64 : Ref sig .tc := ⟨.hbm, 95, rfl⟩
abbrev main_v65 : Ref sig .tc := ⟨.hbm, 96, rfl⟩
abbrev main_v66 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_c_15 : Ref sig .tc := ⟨.hbm, 103, rfl⟩
abbrev main_v72 : Ref sig .tc := ⟨.hbm, 104, rfl⟩
abbrev main_v73 : Ref sig .tc := ⟨.hbm, 105, rfl⟩
abbrev main_c_16 : Ref sig .tc := ⟨.hbm, 106, rfl⟩
abbrev main_v74 : Ref sig .tc := ⟨.hbm, 107, rfl⟩
abbrev main_v75 : Ref sig .tc := ⟨.hbm, 108, rfl⟩
abbrev main_v76 : Ref sig .tc := ⟨.hbm, 109, rfl⟩
abbrev main_v77 : Ref sig .tc := ⟨.hbm, 110, rfl⟩
abbrev main_v78 : Ref sig .tc := ⟨.hbm, 111, rfl⟩
abbrev main_cst_17 : Ref sig .tc := ⟨.hbm, 112, rfl⟩
abbrev main_v79 : Ref sig .tc := ⟨.hbm, 113, rfl⟩
abbrev main_v80 : Ref sig .tc := ⟨.hbm, 114, rfl⟩
abbrev main_v81 : Ref sig .tc := ⟨.hbm, 115, rfl⟩
abbrev main_v82 : Ref sig .tc := ⟨.hbm, 116, rfl⟩
abbrev main_v83 : Ref sig .tc := ⟨.hbm, 117, rfl⟩
abbrev main_v84 : Ref sig .tc := ⟨.hbm, 118, rfl⟩
abbrev main_v85 : Ref sig .tc := ⟨.hbm, 119, rfl⟩
abbrev main_c_18 : Ref sig .tc := ⟨.hbm, 120, rfl⟩
abbrev main_v86 : Ref sig .tc := ⟨.hbm, 121, rfl⟩
abbrev main_v87 : Ref sig .tc := ⟨.hbm, 122, rfl⟩
abbrev main_c_19 : Ref sig .tc := ⟨.hbm, 123, rfl⟩
abbrev main_v88 : Ref sig .tc := ⟨.hbm, 124, rfl⟩
abbrev main_v89 : Ref sig .tc := ⟨.hbm, 125, rfl⟩
abbrev main_v90 : Ref sig .tc := ⟨.hbm, 126, rfl⟩
abbrev main_v91 : Ref sig .tc := ⟨.hbm, 127, rfl⟩
abbrev main_v92 : Ref sig .tc := ⟨.hbm, 128, rfl⟩
abbrev main_cst_20 : Ref sig .tc := ⟨.hbm, 129, rfl⟩
abbrev main_v93 : Ref sig .tc := ⟨.hbm, 130, rfl⟩
abbrev main_v94 : Ref sig .tc := ⟨.hbm, 131, rfl⟩
abbrev main_v95 : Ref sig .tc := ⟨.hbm, 132, rfl⟩
abbrev main_v96 : Ref sig .tc := ⟨.hbm, 133, rfl⟩
abbrev main_v97 : Ref sig .tc := ⟨.hbm, 134, rfl⟩
abbrev main_v98 : Ref sig .tc := ⟨.hbm, 135, rfl⟩
abbrev main_v99 : Ref sig .tc := ⟨.hbm, 136, rfl⟩
abbrev main_v100 : Ref sig .tc := ⟨.hbm, 137, rfl⟩
abbrev main_v101 : Ref sig .tc := ⟨.hbm, 138, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg2_0 : Ref sig .tc := ⟨.vmem, 15, rfl⟩
abbrev cc2_stg3_0 : Ref sig .tc := ⟨.vmem, 16, rfl⟩
abbrev cc2_stg3_1 : Ref sig .tc := ⟨.vmem, 17, rfl⟩
abbrev cc3_stg0_0 : Ref sig .tc := ⟨.vmem, 18, rfl⟩
abbrev cc3_stg0_1 : Ref sig .tc := ⟨.vmem, 19, rfl⟩
abbrev cc3_stg1_0 : Ref sig .tc := ⟨.vmem, 20, rfl⟩
abbrev cc3_stg1_1 : Ref sig .tc := ⟨.vmem, 21, rfl⟩
abbrev cc3_stg2_0 : Ref sig .tc := ⟨.vmem, 22, rfl⟩
abbrev cc3_stg3_0 : Ref sig .tc := ⟨.vmem, 23, rfl⟩
abbrev cc3_stg4_0 : Ref sig .tc := ⟨.vmem, 24, rfl⟩
abbrev cc3_scratch0 : Ref sig .tc := ⟨.vmem, 25, rfl⟩
abbrev cc3_scratch1 : Ref sig .tc := ⟨.vmem, 26, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11
abbrev cc2_sem0_0 : DmaSem sig := 12
abbrev cc2_sem0_1 : DmaSem sig := 13
abbrev cc2_sem1_0 : DmaSem sig := 14
abbrev cc2_sem2_0 : DmaSem sig := 15
abbrev cc2_sem3_0 : DmaSem sig := 16
abbrev cc2_sem3_1 : DmaSem sig := 17
abbrev cc3_sem0_0 : DmaSem sig := 18
abbrev cc3_sem0_1 : DmaSem sig := 19
abbrev cc3_sem1_0 : DmaSem sig := 20
abbrev cc3_sem1_1 : DmaSem sig := 21
abbrev cc3_sem2_0 : DmaSem sig := 22
abbrev cc3_sem3_0 : DmaSem sig := 23
abbrev cc3_sem4_0 : DmaSem sig := 24

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x384 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S384x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S5000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x384 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S384x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S5000x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x384 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S384x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S5000x128 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![10], ![false]⟩

def k3_cond2 (i : grid3.Coords) : BitVec 1 :=
  let arg0 : BitVec 32 := BitVec.ofNat 32 (i 0).val
  let c9_i32 : BitVec 32 := 9#32
  let v27 : BitVec 1 := Scalar.cmpi .eq arg0 c9_i32
  let v28 : BitVec 32 := Scalar.extui v27
  let c0_i32_14 : BitVec 32 := 0#32
  let v29 : BitVec 1 := Scalar.cmpi .ne v28 c0_i32_14
  v29

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x1 .i32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S128x10 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S10 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S128x10 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

class Facts₀ : Prop where
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  bcast_S_S50000x128 : S_.BroadcastsInDim S50000x128 (![] : Fin 0 → Fin S50000x128.rank)
  concatenates_S50000x128_S50000x128_S50000x128_S50000x384_d1 : Shape.Concatenates [S50000x128, S50000x128, S50000x128] S50000x384 1
  inb_S5000x384_S5000x384_0_0 : ∀ a, (![0, 0] : Fin 2 → Nat) a + S5000x384.size a ≤ S5000x384.size a
  h_S5000x384 : 0 < S5000x384.numel
  shapeCasts_S5000x384_S5000x384 : S5000x384.ShapeCasts S5000x384
  bitsLt_bf16_f32 : FTy.bits .bf16 < FTy.bits .f32
  inb_S384x128_S384x128_0_0 : ∀ a, (![0, 0] : Fin 2 → Nat) a + S384x128.size a ≤ S384x128.size a
  h_S384x128 : 0 < S384x128.numel
  inb_S128_S128_0 : ∀ a, (![0] : Fin 1 → Nat) a + S128.size a ≤ S128.size a
  h_S128 : 0 < S128.numel
  shapeCasts_S128_S1x128 : S128.ShapeCasts S1x128
  broadcasts_S1x128_S5000x128 : S1x128.Broadcasts S5000x128
  inb_S5000x128_S5000x128_0_0 : ∀ a, (![0, 0] : Fin 2 → Nat) a + S5000x128.size a ≤ S5000x128.size a
  h_S5000x128 : 0 < S5000x128.numel
  shapeCasts_S50000_S50000x1 : S50000.ShapeCasts S50000x1
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S128x1_S128x1_0_0 : ∀ a, (![0, 0] : Fin 2 → Nat) a + S128x1.size a ≤ S128x1.size a
  h_S128x1 : 0 < S128x1.numel
  shapeCasts_S128x1_S128x1 : S128x1.ShapeCasts S128x1
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  iota_S5000x128_d1_w32 : S5000x128.Iotas .tc 32 [1]
  broadcasts_S5000x1_S5000x128 : S5000x1.Broadcasts S5000x128
  natLt_1_32 : 1 < 32
  shapeCasts_S5000x128_S5000x128 : S5000x128.ShapeCasts S5000x128
  broadcasts_S128x1_S128x128 : S128x1.Broadcasts S128x128
  inb_S128x10_S128x10_0_0 : ∀ a, (![0, 0] : Fin 2 → Nat) a + S128x10.size a ≤ S128x10.size a
  h_S128x10 : 0 < S128x10.numel
  inb_S10_S10_0 : ∀ a, (![0] : Fin 1 → Nat) a + S10.size a ≤ S10.size a
  h_S10 : 0 < S10.numel
  shapeCasts_S10_S1x10 : S10.ShapeCasts S1x10
  broadcasts_S1x10_S128x10 : S1x10.Broadcasts S128x10
  scatter_S50000_S800000x1_S800000_n_0_0_1_wf : ScatterDims.WF S50000 S800000x1 S800000 [] [0] [0] 1
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S5000x384_S384x128_S5000x128_1_0_0_1_n_n_wf : DotDims.WF S5000x384 S384x128 S5000x128 [1] [0] [0] [1] [] []
  dot_S5000x128_S5000x128_S128x128_0_0_1_1_n_n_wf : DotDims.WF S5000x128 S5000x128 S128x128 [0] [0] [1] [1] [] []
  dot_S5000x128_S5000x1_S128x1_0_0_1_1_n_n_wf : DotDims.WF S5000x128 S5000x1 S128x1 [0] [0] [1] [1] [] []
  dot_S128x128_S128x10_S128x10_1_0_0_1_n_n_wf : DotDims.WF S128x128 S128x10 S128x10 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x384.size a ≤ S50000x384.size a
  hwx0_0 : ∀ i : grid0.Coords, EltTy.bits .f32 = 32 ∨ (Rect.block (s := S50000x384) S5000x384.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S384x128.size a ≤ S384x128.size a
  hwx0_1 : ∀ i : grid0.Coords, EltTy.bits .f32 = 32 ∨ (Rect.block (s := S384x128) S384x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128.size a ≤ S128.size a
  hwx0_2 : ∀ i : grid0.Coords, EltTy.bits .f32 = 32 ∨ (Rect.block (s := S128) S128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x128.size a ≤ S50000x128.size a
  hwx0_3 : ∀ i : grid0.Coords, EltTy.bits .f32 = 32 ∨ (Rect.block (s := S50000x128) S5000x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x384.size a ≤ S50000x384.size a
  hwx1_0 : ∀ i : grid1.Coords, EltTy.bits .f32 = 32 ∨ (Rect.block (s := S50000x384) S5000x384.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S384x128.size a ≤ S384x128.size a
  hwx1_1 : ∀ i : grid1.Coords, EltTy.bits .f32 = 32 ∨ (Rect.block (s := S384x128) S384x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128.size a ≤ S128.size a
  hwx1_2 : ∀ i : grid1.Coords, EltTy.bits .f32 = 32 ∨ (Rect.block (s := S128) S128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x128.size a ≤ S50000x128.size a
  hwx1_3 : ∀ i : grid1.Coords, EltTy.bits .f32 = 32 ∨ (Rect.block (s := S50000x128) S5000x128.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x384.size a ≤ S50000x384.size a
  hwx2_0 : ∀ i : grid2.Coords, EltTy.bits .f32 = 32 ∨ (Rect.block (s := S50000x384) S5000x384.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S384x128.size a ≤ S384x128.size a
  hwx2_1 : ∀ i : grid2.Coords, EltTy.bits .f32 = 32 ∨ (Rect.block (s := S384x128) S384x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128.size a ≤ S128.size a
  hwx2_2 : ∀ i : grid2.Coords, EltTy.bits .f32 = 32 ∨ (Rect.block (s := S128) S128.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S5000x128.size a ≤ S50000x128.size a
  hwx2_3 : ∀ i : grid2.Coords, EltTy.bits .f32 = 32 ∨ (Rect.block (s := S50000x128) S5000x128.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S50000x128.size a
  hwx3_0 : ∀ i : grid3.Coords, EltTy.bits .f32 = 32 ∨ (Rect.block (s := S50000x128) S5000x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x1.size a ≤ S50000x1.size a
  hwx3_1 : ∀ i : grid3.Coords, EltTy.bits .i32 = 32 ∨ (Rect.block (s := S50000x1) S5000x1.size (cc3_transform_1 i) (hinb3_1 i)).WholeWords (EltTy.packing .i32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S128x10.size a ≤ S128x10.size a
  hwx3_2 : ∀ i : grid3.Coords, EltTy.bits .f32 = 32 ∨ (Rect.block (s := S128x10) S128x10.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S10.size a ≤ S10.size a
  hwx3_3 : ∀ i : grid3.Coords, EltTy.bits .f32 = 32 ∨ (Rect.block (s := S10) S10.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S128x10.size a ≤ S128x10.size a
  hwx3_4 : ∀ i : grid3.Coords, EltTy.bits .f32 = 32 ∨ (Rect.block (s := S128x10) S128x10.size (cc3_transform_4 i) (hinb3_4 i)).WholeWords (EltTy.packing .f32)

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S5000x384_S384x128_S5000x128_1_0_0_1_n_n : DotDims S5000x384 S384x128 S5000x128 where
  lhsContracting := [1]
  rhsContracting := [0]
  lhsNonContracting := [0]
  rhsNonContracting := [1]
  lhsBatch := []
  rhsBatch := []
  wf := dot_S5000x384_S384x128_S5000x128_1_0_0_1_n_n_wf
def dot_S5000x128_S5000x128_S128x128_0_0_1_1_n_n : DotDims S5000x128 S5000x128 S128x128 where
  lhsContracting := [0]
  rhsContracting := [0]
  lhsNonContracting := [1]
  rhsNonContracting := [1]
  lhsBatch := []
  rhsBatch := []
  wf := dot_S5000x128_S5000x128_S128x128_0_0_1_1_n_n_wf
def dot_S5000x128_S5000x1_S128x1_0_0_1_1_n_n : DotDims S5000x128 S5000x1 S128x1 where
  lhsContracting := [0]
  rhsContracting := [0]
  lhsNonContracting := [1]
  rhsNonContracting := [1]
  lhsBatch := []
  rhsBatch := []
  wf := dot_S5000x128_S5000x1_S128x1_0_0_1_1_n_n_wf
def dot_S128x128_S128x10_S128x10_1_0_0_1_n_n : DotDims S128x128 S128x10 S128x10 where
  lhsContracting := [1]
  rhsContracting := [0]
  lhsNonContracting := [0]
  rhsNonContracting := [1]
  lhsBatch := []
  rhsBatch := []
  wf := dot_S128x128_S128x10_S128x10_1_0_0_1_n_n_wf

abbrev win0_0 : Pipeline.Window sig grid0 :=
  Pipeline.Window.ofSpec (Memref.whole main_v38) S5000x384.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg4) S384x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg5) S128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v39) S5000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v68) S5000x384.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg6) S384x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg7) S128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v69) S5000x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v98) S5000x384.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg8) S384x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_arg9) S128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v99) S5000x128.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v99) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v100) S5000x1.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_arg10) S128x10.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_arg11) S10.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v101) S128x10.size cc3_transform_4 reads3_4 true true 1 stage3_4 sem3_4
    hrank3 hreads3_4 hinb3_4 nbuf3_4 (Memref.isWhole_whole _) hwx3_4 hstage3_4

abbrev win3 : Fin 5 → Pipeline.Window sig grid3 := fun | 0 => win3_0 | 1 => win3_1 | 2 => win3_2 | 3 => win3_3 | 4 => win3_4 | ⟨_ + 5, h⟩ => absurd h (Nat.not_lt.2 (Nat.le_add_left _ _))
abbrev spec3 : Fin 5 → Pipeline.WinSpec sig grid3.rank := fun w => (win3 w).toWinSpec

abbrev idle3 : Fin 5 → grid3.Coords → Bool := fun | 0 => fun _ => false | 1 => fun _ => false | 2 => fun _ => false | 3 => fun _ => false | 4 => fun i => !(k3_cond2 i == 1#1) | ⟨_ + 5, h⟩ => absurd h (Nat.not_lt.2 (Nat.le_add_left _ _))

class Facts : Prop extends Facts₀ where

variable [Facts]
-- ==== ReferenceIdeal.lean ====
abbrev S50000x128 : Shape := ⟨2, ![50000, 128]⟩
abbrev S800000 : Shape := ⟨1, ![800000]⟩
abbrev S50000 : Shape := ⟨1, ![50000]⟩
abbrev S384x128 : Shape := ⟨2, ![384, 128]⟩
abbrev S128 : Shape := ⟨1, ![128]⟩
abbrev S128x10 : Shape := ⟨2, ![128, 10]⟩
abbrev S10 : Shape := ⟨1, ![10]⟩
abbrev S_ : Shape := ⟨0, ![]⟩
abbrev S800000x1 : Shape := ⟨2, ![800000, 1]⟩
abbrev S50000x1 : Shape := ⟨2, ![50000, 1]⟩
abbrev S800000x128 : Shape := ⟨2, ![800000, 128]⟩
abbrev S50000x384 : Shape := ⟨2, ![50000, 384]⟩
abbrev S1x128 : Shape := ⟨2, ![1, 128]⟩
abbrev S128x128 : Shape := ⟨2, ![128, 128]⟩
abbrev S128x1 : Shape := ⟨2, ![128, 1]⟩
abbrev S1x10 : Shape := ⟨2, ![1, 10]⟩

abbrev nBuf : Space → Nat
  | .hbm => 175
  | .vmem => 0
  | .smem => 0
  | _ => 0

abbrev hbmTy0_0 (i : Nat) : BufTy := match i % 128 with
  | 0 => ⟨S50000x128, .f32⟩
  | 1 => ⟨S800000, .i32⟩
  | 2 => ⟨S800000, .i32⟩
  | 3 => ⟨S50000, .i32⟩
  | 4 => ⟨S384x128, .f32⟩
  | 5 => ⟨S128, .f32⟩
  | 6 => ⟨S384x128, .f32⟩
  | 7 => ⟨S128, .f32⟩
  | 8 => ⟨S384x128, .f32⟩
  | 9 => ⟨S128, .f32⟩
  | 10 => ⟨S128x10, .f32⟩
  | 11 => ⟨S10, .f32⟩
  | 12 => ⟨S_, .f32⟩
  | 13 => ⟨S800000, .f32⟩
  | 14 => ⟨S_, .f32⟩
  | 15 => ⟨S50000, .f32⟩
  | 16 => ⟨S800000x1, .i32⟩
  | 17 => ⟨S50000, .f32⟩
  | 18 => ⟨S_, .f32⟩
  | 19 => ⟨S50000, .f32⟩
  | 20 => ⟨S50000, .i1⟩
  | 21 => ⟨S_, .f32⟩
  | 22 => ⟨S_, .f32⟩
  | 23 => ⟨S50000, .f32⟩
  | 24 => ⟨S50000, .f32⟩
  | 25 => ⟨S_, .f32⟩
  | 26 => ⟨S50000, .f32⟩
  | 27 => ⟨S50000, .f32⟩
  | 28 => ⟨S50000x1, .f32⟩
  | 29 => ⟨S50000x128, .f32⟩
  | 30 => ⟨S50000x128, .f32⟩
  | 31 => ⟨S_, .i32⟩
  | 32 => ⟨S800000, .i32⟩
  | 33 => ⟨S800000, .i1⟩
  | 34 => ⟨S_, .i32⟩
  | 35 => ⟨S800000, .i32⟩
  | 36 => ⟨S800000, .i32⟩
  | 37 => ⟨S800000, .i32⟩
  | 38 => ⟨S800000x1, .i32⟩
  | 39 => ⟨S800000x128, .f32⟩
  | 40 => ⟨S_, .f32⟩
  | 41 => ⟨S50000x128, .f32⟩
  | 42 => ⟨S800000x1, .i32⟩
  | 43 => ⟨S50000x128, .f32⟩
  | 44 => ⟨S50000x128, .f32⟩
  | 45 => ⟨S50000x128, .f32⟩
  | 46 => ⟨S50000x128, .f32⟩
  | 47 => ⟨S50000x128, .f32⟩
  | 48 => ⟨S_, .i32⟩
  | 49 => ⟨S800000, .i32⟩
  | 50 => ⟨S800000, .i1⟩
  | 51 => ⟨S_, .i32⟩
  | 52 => ⟨S800000, .i32⟩
  | 53 => ⟨S800000, .i32⟩
  | 54 => ⟨S800000, .i32⟩
  | 55 => ⟨S800000x1, .i32⟩
  | 56 => ⟨S800000x128, .f32⟩
  | 57 => ⟨S_, .f32⟩
  | 58 => ⟨S50000x128, .f32⟩
  | 59 => ⟨S800000x1, .i32⟩
  | 60 => ⟨S50000x128, .f32⟩
  | 61 => ⟨S50000x128, .f32⟩
  | 62 => ⟨S50000x128, .f32⟩
  | 63 => ⟨S50000x384, .f32⟩
  | 64 => ⟨S50000x128, .f32⟩
  | 65 => ⟨S1x128, .f32⟩
  | 66 => ⟨S50000x128, .f32⟩
  | 67 => ⟨S50000x128, .f32⟩
  | 68 => ⟨S_, .f32⟩
  | 69 => ⟨S50000x128, .f32⟩
  | 70 => ⟨S50000x128, .f32⟩
  | 71 => ⟨S50000x128, .f32⟩
  | 72 => ⟨S50000x128, .f32⟩
  | 73 => ⟨S_, .i32⟩
  | 74 => ⟨S800000, .i32⟩
  | 75 => ⟨S800000, .i1⟩
  | 76 => ⟨S_, .i32⟩
  | 77 => ⟨S800000, .i32⟩
  | 78 => ⟨S800000, .i32⟩
  | 79 => ⟨S800000, .i32⟩
  | 80 => ⟨S800000x1, .i32⟩
  | 81 => ⟨S800000x128, .f32⟩
  | 82 => ⟨S_, .f32⟩
  | 83 => ⟨S50000x128, .f32⟩
  | 84 => ⟨S800000x1, .i32⟩
  | 85 => ⟨S50000x128, .f32⟩
  | 86 => ⟨S50000x128, .f32⟩
  | 87 => ⟨S50000x128, .f32⟩
  | 88 => ⟨S50000x128, .f32⟩
  | 89 => ⟨S50000x128, .f32⟩
  | 90 => ⟨S_, .i32⟩
  | 91 => ⟨S800000, .i32⟩
  | 92 => ⟨S800000, .i1⟩
  | 93 => ⟨S_, .i32⟩
  | 94 => ⟨S800000, .i32⟩
  | 95 => ⟨S800000, .i32⟩
  | 96 => ⟨S800000, .i32⟩
  | 97 => ⟨S800000x1, .i32⟩
  | 98 => ⟨S800000x128, .f32⟩
  | 99 => ⟨S_, .f32⟩
  | 100 => ⟨S50000x128, .f32⟩
  | 101 => ⟨S800000x1, .i32⟩
  | 102 => ⟨S50000x128, .f32⟩
  | 103 => ⟨S50000x128, .f32⟩
  | 104 => ⟨S50000x128, .f32⟩
  | 105 => ⟨S50000x384, .f32⟩
  | 106 => ⟨S50000x128, .f32⟩
  | 107 => ⟨S1x128, .f32⟩
  | 108 => ⟨S50000x128, .f32⟩
  | 109 => ⟨S50000x128, .f32⟩
  | 110 => ⟨S_, .f32⟩
  | 111 => ⟨S50000x128, .f32⟩
  | 112 => ⟨S50000x128, .f32⟩
  | 113 => ⟨S50000x128, .f32⟩
  | 114 => ⟨S50000x128, .f32⟩
  | 115 => ⟨S_, .i32⟩
  | 116 => ⟨S800000, .i32⟩
  | 117 => ⟨S800000, .i1⟩
  | 118 => ⟨S_, .i32⟩
  | 119 => ⟨S800000, .i32⟩
  | 120 => ⟨S800000, .i32⟩
  | 121 => ⟨S800000, .i32⟩
  | 122 => ⟨S800000x1, .i32⟩
  | 123 => ⟨S800000x128, .f32⟩
  | 124 => ⟨S_, .f32⟩
  | 125 => ⟨S50000x128, .f32⟩
  | 126 => ⟨S800000x1, .i32⟩
  | 127 => ⟨S50000x128, .f32⟩
  | _ => ⟨S50000x128, .f32⟩

abbrev hbmTy0_1 (i : Nat) : BufTy := match i % 128 with
  | 0 => ⟨S50000x128, .f32⟩
  | 1 => ⟨S50000x128, .f32⟩
  | 2 => ⟨S50000x128, .f32⟩
  | 3 => ⟨S50000x128, .f32⟩
  | 4 => ⟨S_, .i32⟩
  | 5 => ⟨S800000, .i32⟩
  | 6 => ⟨S800000, .i1⟩
  | 7 => ⟨S_, .i32⟩
  | 8 => ⟨S800000, .i32⟩
  | 9 => ⟨S800000, .i32⟩
  | 10 => ⟨S800000, .i32⟩
  | 11 => ⟨S800000x1, .i32⟩
  | 12 => ⟨S800000x128, .f32⟩
  | 13 => ⟨S_, .f32⟩
  | 14 => ⟨S50000x128, .f32⟩
  | 15 => ⟨S800000x1, .i32⟩
  | 16 => ⟨S50000x128, .f32⟩
  | 17 => ⟨S50000x128, .f32⟩
  | 18 => ⟨S50000x128, .f32⟩
  | 19 => ⟨S50000x384, .f32⟩
  | 20 => ⟨S50000x128, .f32⟩
  | 21 => ⟨S1x128, .f32⟩
  | 22 => ⟨S50000x128, .f32⟩
  | 23 => ⟨S50000x128, .f32⟩
  | 24 => ⟨S_, .f32⟩
  | 25 => ⟨S50000x128, .f32⟩
  | 26 => ⟨S50000x128, .f32⟩
  | 27 => ⟨S_, .f32⟩
  | 28 => ⟨S128x128, .f32⟩
  | 29 => ⟨S50000x1, .i32⟩
  | 30 => ⟨S128x128, .f32⟩
  | 31 => ⟨S_, .f32⟩
  | 32 => ⟨S50000, .f32⟩
  | 33 => ⟨S_, .f32⟩
  | 34 => ⟨S128, .f32⟩
  | 35 => ⟨S50000x1, .i32⟩
  | 36 => ⟨S128, .f32⟩
  | 37 => ⟨S_, .f32⟩
  | 38 => ⟨S128, .f32⟩
  | 39 => ⟨S128, .f32⟩
  | 40 => ⟨S128x1, .f32⟩
  | 41 => ⟨S128x128, .f32⟩
  | 42 => ⟨S128x128, .f32⟩
  | 43 => ⟨S128x10, .f32⟩
  | 44 => ⟨S1x10, .f32⟩
  | 45 => ⟨S128x10, .f32⟩
  | 46 => ⟨S128x10, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_cst : Ref sig .tc := ⟨.hbm, 12, rfl⟩
abbrev main_v0 : Ref sig .tc := ⟨.hbm, 13, rfl⟩
abbrev main_cst_0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_cst_1 : Ref sig .tc := ⟨.hbm, 18, rfl⟩
abbrev main_v4 : Ref sig .tc := ⟨.hbm, 19, rfl⟩
abbrev main_v5 : Ref sig .tc := ⟨.hbm, 20, rfl⟩
abbrev main_cst_2 : Ref sig .tc := ⟨.hbm, 21, rfl⟩
abbrev main_call0_v0 : Ref sig .tc := ⟨.hbm, 22, rfl⟩
abbrev main_call0_v1 : Ref sig .tc := ⟨.hbm, 23, rfl⟩
abbrev main_v6 : Ref sig .tc := ⟨.hbm, 24, rfl⟩
abbrev main_cst_3 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_c : Ref sig .tc := ⟨.hbm, 31, rfl⟩
abbrev main_v12 : Ref sig .tc := ⟨.hbm, 32, rfl⟩
abbrev main_v13 : Ref sig .tc := ⟨.hbm, 33, rfl⟩
abbrev main_c_4 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_cst_5 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_c_6 : Ref sig .tc := ⟨.hbm, 48, rfl⟩
abbrev main_v26 : Ref sig .tc := ⟨.hbm, 49, rfl⟩
abbrev main_v27 : Ref sig .tc := ⟨.hbm, 50, rfl⟩
abbrev main_c_7 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_cst_8 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_call1_cst : Ref sig .tc := ⟨.hbm, 68, rfl⟩
abbrev main_call1_v0 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_c_9 : Ref sig .tc := ⟨.hbm, 73, rfl⟩
abbrev main_v46 : Ref sig .tc := ⟨.hbm, 74, rfl⟩
abbrev main_v47 : Ref sig .tc := ⟨.hbm, 75, rfl⟩
abbrev main_c_10 : Ref sig .tc := ⟨.hbm, 76, rfl⟩
abbrev main_v48 : Ref sig .tc := ⟨.hbm, 77, rfl⟩
abbrev main_v49 : Ref sig .tc := ⟨.hbm, 78, rfl⟩
abbrev main_v50 : Ref sig .tc := ⟨.hbm, 79, rfl⟩
abbrev main_v51 : Ref sig .tc := ⟨.hbm, 80, rfl⟩
abbrev main_v52 : Ref sig .tc := ⟨.hbm, 81, rfl⟩
abbrev main_cst_11 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩
abbrev main_v58 : Ref sig .tc := ⟨.hbm, 88, rfl⟩
abbrev main_v59 : Ref sig .tc := ⟨.hbm, 89, rfl⟩
abbrev main_c_12 : Ref sig .tc := ⟨.hbm, 90, rfl⟩
abbrev main_v60 : Ref sig .tc := ⟨.hbm, 91, rfl⟩
abbrev main_v61 : Ref sig .tc := ⟨.hbm, 92, rfl⟩
abbrev main_c_13 : Ref sig .tc := ⟨.hbm, 93, rfl⟩
abbrev main_v62 : Ref sig .tc := ⟨.hbm, 94, rfl⟩
abbrev main_v63 : Ref sig .tc := ⟨.hbm, 95, rfl⟩
abbrev main_v64 : Ref sig .tc := ⟨.hbm, 96, rfl⟩
abbrev main_v65 : Ref sig .tc := ⟨.hbm, 97, rfl⟩
abbrev main_v66 : Ref sig .tc := ⟨.hbm, 98, rfl⟩
abbrev main_cst_14 : Ref sig .tc := ⟨.hbm, 99, rfl⟩
abbrev main_v67 : Ref sig .tc := ⟨.hbm, 100, rfl⟩
abbrev main_v68 : Ref sig .tc := ⟨.hbm, 101, rfl⟩
abbrev main_v69 : Ref sig .tc := ⟨.hbm, 102, rfl⟩
abbrev main_v70 : Ref sig .tc := ⟨.hbm, 103, rfl⟩
abbrev main_v71 : Ref sig .tc := ⟨.hbm, 104, rfl⟩
abbrev main_v72 : Ref sig .tc := ⟨.hbm, 105, rfl⟩
abbrev main_v73 : Ref sig .tc := ⟨.hbm, 106, rfl⟩
abbrev main_v74 : Ref sig .tc := ⟨.hbm, 107, rfl⟩
abbrev main_v75 : Ref sig .tc := ⟨.hbm, 108, rfl⟩
abbrev main_v76 : Ref sig .tc := ⟨.hbm, 109, rfl⟩
abbrev main_call2_cst : Ref sig .tc := ⟨.hbm, 110, rfl⟩
abbrev main_call2_v0 : Ref sig .tc := ⟨.hbm, 111, rfl⟩
abbrev main_v77 : Ref sig .tc := ⟨.hbm, 112, rfl⟩
abbrev main_v78 : Ref sig .tc := ⟨.hbm, 113, rfl⟩
abbrev main_v79 : Ref sig .tc := ⟨.hbm, 114, rfl⟩
abbrev main_c_15 : Ref sig .tc := ⟨.hbm, 115, rfl⟩
abbrev main_v80 : Ref sig .tc := ⟨.hbm, 116, rfl⟩
abbrev main_v81 : Ref sig .tc := ⟨.hbm, 117, rfl⟩
abbrev main_c_16 : Ref sig .tc := ⟨.hbm, 118, rfl⟩
abbrev main_v82 : Ref sig .tc := ⟨.hbm, 119, rfl⟩
abbrev main_v83 : Ref sig .tc := ⟨.hbm, 120, rfl⟩
abbrev main_v84 : Ref sig .tc := ⟨.hbm, 121, rfl⟩
abbrev main_v85 : Ref sig .tc := ⟨.hbm, 122, rfl⟩
abbrev main_v86 : Ref sig .tc := ⟨.hbm, 123, rfl⟩
abbrev main_cst_17 : Ref sig .tc := ⟨.hbm, 124, rfl⟩
abbrev main_v87 : Ref sig .tc := ⟨.hbm, 125, rfl⟩
abbrev main_v88 : Ref sig .tc := ⟨.hbm, 126, rfl⟩
abbrev main_v89 : Ref sig .tc := ⟨.hbm, 127, rfl⟩
abbrev main_v90 : Ref sig .tc := ⟨.hbm, 128, rfl⟩
abbrev main_v91 : Ref sig .tc := ⟨.hbm, 129, rfl⟩
abbrev main_v92 : Ref sig .tc := ⟨.hbm, 130, rfl⟩
abbrev main_v93 : Ref sig .tc := ⟨.hbm, 131, rfl⟩
abbrev main_c_18 : Ref sig .tc := ⟨.hbm, 132, rfl⟩
abbrev main_v94 : Ref sig .tc := ⟨.hbm, 133, rfl⟩
abbrev main_v95 : Ref sig .tc := ⟨.hbm, 134, rfl⟩
abbrev main_c_19 : Ref sig .tc := ⟨.hbm, 135, rfl⟩
abbrev main_v96 : Ref sig .tc := ⟨.hbm, 136, rfl⟩
abbrev main_v97 : Ref sig .tc := ⟨.hbm, 137, rfl⟩
abbrev main_v98 : Ref sig .tc := ⟨.hbm, 138, rfl⟩
abbrev main_v99 : Ref sig .tc := ⟨.hbm, 139, rfl⟩
abbrev main_v100 : Ref sig .tc := ⟨.hbm, 140, rfl⟩
abbrev main_cst_20 : Ref sig .tc := ⟨.hbm, 141, rfl⟩
abbrev main_v101 : Ref sig .tc := ⟨.hbm, 142, rfl⟩
abbrev main_v102 : Ref sig .tc := ⟨.hbm, 143, rfl⟩
abbrev main_v103 : Ref sig .tc := ⟨.hbm, 144, rfl⟩
abbrev main_v104 : Ref sig .tc := ⟨.hbm, 145, rfl⟩
abbrev main_v105 : Ref sig .tc := ⟨.hbm, 146, rfl⟩
abbrev main_v106 : Ref sig .tc := ⟨.hbm, 147, rfl⟩
abbrev main_v107 : Ref sig .tc := ⟨.hbm, 148, rfl⟩
abbrev main_v108 : Ref sig .tc := ⟨.hbm, 149, rfl⟩
abbrev main_v109 : Ref sig .tc := ⟨.hbm, 150, rfl⟩
abbrev main_v110 : Ref sig .tc := ⟨.hbm, 151, rfl⟩
abbrev main_call3_cst : Ref sig .tc := ⟨.hbm, 152, rfl⟩
abbrev main_call3_v0 : Ref sig .tc := ⟨.hbm, 153, rfl⟩
abbrev main_v111 : Ref sig .tc := ⟨.hbm, 154, rfl⟩
abbrev main_cst_21 : Ref sig .tc := ⟨.hbm, 155, rfl⟩
abbrev main_v112 : Ref sig .tc := ⟨.hbm, 156, rfl⟩
abbrev main_v113 : Ref sig .tc := ⟨.hbm, 157, rfl⟩
abbrev main_v114 : Ref sig .tc := ⟨.hbm, 158, rfl⟩
abbrev main_cst_22 : Ref sig .tc := ⟨.hbm, 159, rfl⟩
abbrev main_v115 : Ref sig .tc := ⟨.hbm, 160, rfl⟩
abbrev main_cst_23 : Ref sig .tc := ⟨.hbm, 161, rfl⟩
abbrev main_v116 : Ref sig .tc := ⟨.hbm, 162, rfl⟩
abbrev main_v117 : Ref sig .tc := ⟨.hbm, 163, rfl⟩
abbrev main_v118 : Ref sig .tc := ⟨.hbm, 164, rfl⟩
abbrev main_cst_24 : Ref sig .tc := ⟨.hbm, 165, rfl⟩
abbrev main_v119 : Ref sig .tc := ⟨.hbm, 166, rfl⟩
abbrev main_v120 : Ref sig .tc := ⟨.hbm, 167, rfl⟩
abbrev main_v121 : Ref sig .tc := ⟨.hbm, 168, rfl⟩
abbrev main_v122 : Ref sig .tc := ⟨.hbm, 169, rfl⟩
abbrev main_v123 : Ref sig .tc := ⟨.hbm, 170, rfl⟩
abbrev main_v124 : Ref sig .tc := ⟨.hbm, 171, rfl⟩
abbrev main_v125 : Ref sig .tc := ⟨.hbm, 172, rfl⟩
abbrev main_v126 : Ref sig .tc := ⟨.hbm, 173, rfl⟩
abbrev main_v127 : Ref sig .tc := ⟨.hbm, 174, rfl⟩

abbrev nD : Nat := 1
abbrev τ : Topo := Topo.v7x

variable {F : FTy → Type} [FloatOps F]

class Facts₀ : Prop where
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  bcast_S_S50000x128 : S_.BroadcastsInDim S50000x128 (![] : Fin 0 → Fin S50000x128.rank)
  concatenates_S50000x128_S50000x128_S50000x128_S50000x384_d1 : Shape.Concatenates [S50000x128, S50000x128, S50000x128] S50000x384 1
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S_S128x128 : S_.BroadcastsInDim S128x128 (![] : Fin 0 → Fin S128x128.rank)
  bcast_S_S128 : S_.BroadcastsInDim S128 (![] : Fin 0 → Fin S128.rank)
  bcast_S128_S128x1_0 : S128.BroadcastsInDim S128x1 (![0] : Fin 1 → Fin S128x1.rank)
  bcast_S128x1_S128x128_0_1 : S128x1.BroadcastsInDim S128x128 (![0, 1] : Fin 2 → Fin S128x128.rank)
  bcast_S10_S1x10_1 : S10.BroadcastsInDim S1x10 (![1] : Fin 1 → Fin S1x10.rank)
  bcast_S1x10_S128x10_0_1 : S1x10.BroadcastsInDim S128x10 (![0, 1] : Fin 2 → Fin S128x10.rank)
  scatter_S50000_S800000x1_S800000_n_0_0_1_wf : ScatterDims.WF S50000 S800000x1 S800000 [] [0] [0] 1
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S50000x384_S384x128_S50000x128_1_0_0_1_n_n_wf : DotDims.WF S50000x384 S384x128 S50000x128 [1] [0] [0] [1] [] []
  scatter_S128x128_S50000x1_S50000x128_1_0_0_1_wf : ScatterDims.WF S128x128 S50000x1 S50000x128 [1] [0] [0] 1
  scatter_S128_S50000x1_S50000_n_0_0_1_wf : ScatterDims.WF S128 S50000x1 S50000 [] [0] [0] 1
  dot_S128x128_S128x10_S128x10_1_0_0_1_n_n_wf : DotDims.WF S128x128 S128x10 S128x10 [1] [0] [0] [1] [] []

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S50000x384_S384x128_S50000x128_1_0_0_1_n_n : DotDims S50000x384 S384x128 S50000x128 where
  lhsContracting := [1]
  rhsContracting := [0]
  lhsNonContracting := [0]
  rhsNonContracting := [1]
  lhsBatch := []
  rhsBatch := []
  wf := dot_S50000x384_S384x128_S50000x128_1_0_0_1_n_n_wf
def scatter_S128x128_S50000x1_S50000x128_1_0_0_1 : ScatterDims S128x128 S50000x1 S50000x128 where
  updateWindowDims := [1]
  insertedWindowDims := [0]
  scatterDimsToOperandDims := [0]
  indexVectorDim := 1
  wf := scatter_S128x128_S50000x1_S50000x128_1_0_0_1_wf
def scatter_S128_S50000x1_S50000_n_0_0_1 : ScatterDims S128 S50000x1 S50000 where
  updateWindowDims := []
  insertedWindowDims := [0]
  scatterDimsToOperandDims := [0]
  indexVectorDim := 1
  wf := scatter_S128_S50000x1_S50000_n_0_0_1_wf
def dot_S128x128_S128x10_S128x10_1_0_0_1_n_n : DotDims S128x128 S128x10 S128x10 where
  lhsContracting := [1]
  rhsContracting := [0]
  lhsNonContracting := [0]
  rhsNonContracting := [1]
  lhsBatch := []
  rhsBatch := []
  wf := dot_S128x128_S128x10_S128x10_1_0_0_1_n_n_wf

class Facts : Prop extends Facts₀ where

variable [Facts]
-- ==== Proof.K.RunCond.lean ====
import proofs.«431499_j78546361909690_1_alg».proof.Proof.Gen.Kernel.Regions

noncomputable section

namespace Cert.Kernel.Hand

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F]

variable (m : (ℓ : Loc nD τ sig) → Buf (Elt F) ℓ)

/-- Memory `s` holds `v` in core `c`'s result array and each of its arguments as launched in `m`. -/
abbrev Post (c : Dev nD) (v : Buf (Elt F) ((c.tc : Thread nD τ).loc main_v101)) (s : MemSt nD τ sig (Elt F)) : Prop :=
  let K (r : Ref sig .tc) := s.mem ((c.tc : Thread nD τ).loc r) = m ((c.tc : Thread nD τ).loc r)
  s.mem ((c.tc : Thread nD τ).loc main_v101) = v ∧ K main_arg0 ∧ K main_arg1 ∧ K main_arg2 ∧ K main_arg3 ∧ K main_arg4 ∧ K main_arg5
    ∧ K main_arg6 ∧ K main_arg7 ∧ K main_arg8 ∧ K main_arg9 ∧ K main_arg10 ∧ K main_arg11

set_option backward.isDefEq.respectTransparency.types false in
/-- The run over the ten segments, given a record per region and the chain of their thread states, with the result array named. -/
theorem run_cond {Ix : Type} [DecidableEq Ix] {U : Type} [URA U] {Lvl : Type} [Preorder Lvl]
    (EP : Emb (URounds (GSem nD τ sig) Unit) (MT nD τ sig Ix (Elt F) ℕ U Lvl)) [EP.LandsIn (upEmb : UEmb _ (MT nD τ sig Ix (Elt F) ℕ U Lvl))]
    (ι : Ix) (𝒱₀ : Variants) (L : GSem nD τ sig → Finset Ix) (lv : GSem nD τ sig → Ix → Lvl) (hL : ∀ g : GSem nD τ sig, g.1.2 ≠ .tc → L g = ∅)
    (ρ : Dev nD → PrngReg) (outs : Outs (F := F))
    (pdats : (p : Fin 4) → (c : Dev nD) → Dat τ (Elt F) Ix ℕ U Lvl (cfgs p) c)
    (O₀ : Dev nD → CellTallies nD τ sig Ix) (G : Dev nD → sProp (MT nD τ sig Ix (Elt F) ℕ U Lvl)) (u₀ : U)
    (hu₀ : (ownU u₀ : sProp (MT nD τ sig Ix (Elt F) ℕ U Lvl)) ⊢ |={Set.univ}=> iprop(BI.own (EP (initOf (Pipeline.cells cfgs cellOf_inj) (Pipeline.launchToks cfgs cellOf_inj))) ∗ bigSep Finset.univ G))
    (E : Fin 5 → Dev nD → sProp (MT nD τ sig Ix (Elt F) ℕ U Lvl))
    (hE0 : iprop((bigSep Finset.univ fun c : Dev nD => iprop(unscopedSems0 c ∗ owes (c : Thread nD τ) (O₀ c) ∅ ∗ Pipeline.launchCred O₀ c ∗ prngReg c (ρ c) ∗ G c)) ∗ levAts L lv)
      ⊢ (|={Set.univ}=> bigSep Finset.univ (E 0) : sProp (MT nD τ sig Ix (Elt F) ℕ U Lvl)))
    (R0 : RegionSeg (pcfgs (F := F)) adm pdats ι defs₀ 𝒱₀ L lv 0)
    (R1 : RegionSeg (pcfgs (F := F)) adm pdats ι defs₀ 𝒱₀ L lv 1)
    (R2 : RegionSeg (pcfgs (F := F)) adm pdats ι defs₀ 𝒱₀ L lv 2)
    (R3 : RegionSeg (pcfgs (F := F)) adm pdats ι defs₀ 𝒱₀ L lv 3)
    (hch : ∀ c, Seg.ChainsAt c (fun c => iprop(StableHlo.held (c : Thread nD τ) (Pipeline.ucRefs τ sig) (V0 m c) ∗ E 0 c)) (segs m outs 𝒱₀ L lv E ι pdats R0 R1 R2 R3 c)
      fun c => iprop(StableHlo.held (c : Thread nD τ) (Pipeline.ucRefs τ sig) (V10 m outs c) ∗ ∃ W, owes (c : Thread nD τ) (0 : CellTallies nD τ sig Ix) W)) :
    θ_run defs (onTc (τ := τ) (main (F := F))) ⟨m, fun _ => 0, ρ⟩ fun r => ∀ c : Dev nD, Post m c (V10 m outs c main_v101) r.2 := by
  refine Pipeline.θ_run_regions_kit_dev (pcfgs (F := F)) adm pdats ι cellOf_inj EP defs₀ 𝒱₀ L lv m ρ main
    (segs m outs 𝒱₀ L lv E ι pdats R0 R1 R2 R3)
    (fun c Q => by
      rewrite [main_chain c, Seg.run_eq_chain,
        show (segs m outs 𝒱₀ L lv E ι pdats R0 R1 R2 R3 c).map Seg.prog = [
          StableHlo.seq hostOps0,
          StableHlo.seq hostOps0_1,
          StableHlo.seq hostOps0_2,
          Prog.lift (.customCall (Pipeline.entry 0) ()),
          StableHlo.seq hostOps1,
          Prog.lift (.customCall (Pipeline.entry 1) ()),
          StableHlo.seq hostOps2,
          Prog.lift (.customCall (Pipeline.entry 2) ()),
          StableHlo.seq hostOps3,
          Prog.lift (.customCall (Pipeline.entry 3) ()) ] from rfl]
      exact .rfl)
    (fun c => by simp only [segs, Seg.pipes_host, Seg.pipes_region, Seg.pipes_nil]; decide) O₀ hL G u₀ hu₀
    (T₀ := fun c => iprop(unscopedBufs c (fun b => m ((c.tc : Thread nD τ).loc b)) ∗ E 0 c))
    (Tₙ := fun c => StableHlo.held (c : Thread nD τ) (Pipeline.ucRefs τ sig) (V10 m outs c))
    (hch := fun c => ⟨(sep_mono (.of_eq (Pipeline.unscopedBufs_held c (V0 m c))) .rfl).trans (hch c).1, (hch c).2⟩)
    (hinit := ?_) (QY := fun c => Post m c (V10 m outs c main_v101))
    (hfin := fun c s' => ?_) (hQ := fun _ h => h)
  · rw [bigSep_sep']
    iintro ⟨⟨Hh, Hr⟩, Hla⟩
    imod hE0 $$ [Hr Hla] with HE
    · isplitl [Hr] <;> iassumption
    imodintro
    rw [bigSep_sep']
    isplitl [Hh] <;> iassumption
  · unfold StableHlo.held
    refine (pointsTo_read_all (Pipeline.ucRefs τ sig) (fun b => ((c : Thread nD τ).1, b)) (V10 m outs c) s').trans ?_
    iintro ⟨%h, HSI⟩
    imodintro
    isplitr
    · ipureintro
      have hk (r : Ref sig .tc) (hr : ¬(Proc.devRef .tc r : DevRef τ sig).isScoped) := h _ (Finset.mem_filter.mpr ⟨StableHlo.devRef_mem_tcRefs r, hr⟩)
      exact ⟨hk _ (by decide),
        (hk _ (by decide)).trans (V10_main_arg0 m outs c),
        (hk _ (by decide)).trans (V10_main_arg1 m outs c),
        (hk _ (by decide)).trans (V10_main_arg2 m outs c),
        (hk _ (by decide)).trans (V10_main_arg3 m outs c),
        (hk _ (by decide)).trans (V10_main_arg4 m outs c),
        (hk _ (by decide)).trans (V10_main_arg5 m outs c),
        (hk _ (by decide)).trans (V10_main_arg6 m outs c),
        (hk _ (by decide)).trans (V10_main_arg7 m outs c),
        (hk _ (by decide)).trans (V10_main_arg8 m outs c),
        (hk _ (by decide)).trans (V10_main_arg9 m outs c),
        (hk _ (by decide)).trans (V10_main_arg10 m outs c),
        (hk _ (by decide)).trans (V10_main_arg11 m outs c)⟩
    · iexact HSI

end Cert.Kernel.Hand

end
-- ==== Proof.K.Lin0.lean ====
import proofs.«431499_j78546361909690_1_alg».proof.Proof.Gen.Kernel.Launch
import proofs.«431499_j78546361909690_1_alg».proof.Proof.Gen.Kernel.Skeleton
import proofs.«431499_j78546361909690_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.ProofMode Idealize.SL.Sem
open Idealize.ShloMosaic.Pipeline (Dat BodyObligation)

variable {F : FTy → Type} [FloatOps F]

local notation "𝕄" => MT nD τ sig Unit (Elt F) ℕ (UR sig nD τ) ℕ

abbrev r0_in0 : Rect S5000x384 := Rect.unit (s := S5000x384) ![0, 0] S5000x384.size inb_S5000x384_S5000x384_0_0
abbrev r0_in1 : Rect S384x128 := Rect.unit (s := S384x128) ![0, 0] S384x128.size inb_S384x128_S384x128_0_0
abbrev r0_in2 : Rect S128 := Rect.unit (s := S128) ![0] S128.size inb_S128_S128_0
abbrev r0_out : Rect S5000x128 := Rect.unit (s := S5000x128) ![0, 0] S5000x128.size inb_S5000x128_S5000x128_0_0

-- The content the body's one store leaves in the output block: max(x0 · x1 + x2, 0), x0 and x1 cast to bf16 first.
def out0_3 (x0 : Vec F S5000x384 .f32) (x1 : Vec F S384x128 .f32) (x2 : Vec F S128 .f32) : Vec F S5000x128 .f32 :=
  View.canon [⟨r0_out, k0_pay1 (View.ld x0 r0_in0) (View.ld x1 r0_in1) (View.ld x2 r0_in2)⟩]

-- The body's triple in the shape of a body obligation, so that each region's obligation is one application of it.
theorem sound_kernel0 (c : Dev nD) (i : grid0.Coords)
    (arg1 : Memref sig .tc .vmem S5000x384 .f32) (harg1 : arg1.IsWhole) (arg2 : Memref sig .tc .vmem S384x128 .f32) (harg2 : arg2.IsWhole)
    (arg3 : Memref sig .tc .vmem S128 .f32) (harg3 : arg3.IsWhole) (arg4 : Memref sig .tc .vmem S5000x128 .f32) (harg4 : arg4.IsWhole)
    {D0 D1 D2 D3 : Type} {b0 : D0 → Vec F S5000x384 .f32} {b1 : D1 → Vec F S384x128 .f32} {b2 : D2 → Vec F S128 .f32}
    {b3 : D3 → Vec F S5000x128 .f32} {x0 x1 x2 y3} (h0 : ∀ d, b0 d = x0) (h1 : ∀ d, b1 d = x1) (h2 : ∀ d, b2 d = x2)
    (h3 : y3 = out0_3 x0 x1 x2) (P O : sProp 𝕄) :
    iprop(P ∗ O ∗ (∃ d, owns c.tc arg1 fullShare (b0 d)) ∗ (∃ d, owns c.tc arg2 fullShare (b1 d))
        ∗ (∃ d, owns c.tc arg3 fullShare (b2 d)) ∗ (∃ d, owns c.tc arg4 fullShare (b3 d)))
      ⊢ wp frame (wpE defs₀ Variants.none c none) Set.univ (cc0__linear_relu_kernel i arg1 harg1 arg2 harg2 arg3 harg3 arg4 harg4)
          fun _ => iprop(P ∗ O ∗ owns c.tc arg1 fullShare x0 ∗ owns c.tc arg2 fullShare x1
            ∗ owns c.tc arg3 fullShare x2 ∗ owns c.tc arg4 fullShare y3) := by
  subst h3
  simp only [cc0__linear_relu_kernel_eq_skeleton, h0, h1, h2]; unfold cc0__linear_relu_kernel_skel
  unfold owns
  iintro ⟨HP, HO, ⟨%d0, %f0, %hf0, H0⟩, ⟨%d1, %f1, %hf1, H1⟩, ⟨%d2, %f2, %hf2, H2⟩, ⟨%d3, %f3, -, H3⟩⟩
  subst hf0 hf1 hf2
  sl_exec
  sl_step
  isplitl [HP]; · iexact HP
  isplitl [HO]; · iexact HO
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (View.cover_of_tiled [⟨r0_out, _⟩] S5000x128.size (by rfl))

variable (V : (c : Dev nD) → (b : Ref sig .tc) → Buf (Elt F) ((c : Thread nD τ).loc b))

-- The block of window w at grid point t, read from the window's array in V.
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

-- The region's proof data at entry contents V: after the body each input holds its block, the output out0_3 of the three.
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

theorem after0_3 (c : Dev nD) (t : Fin cfg0.N) :
    (dat0 V c).after 3 t = out0_3 (iblk0 V c 0 t) (iblk0 V c 1 t) (iblk0 V c 2 t) := by dsimp only [dat0]
theorem A_eq0 (c : Dev nD) (w : Fin cfg0.W) : (dat0 V c).A w = V c (Pipeline.arrRef spec0 w) := rfl

-- The body writes no input, so what an input holds before the body is the block it holds after it.
theorem before0_0 (c : Dev nD) (t : Fin cfg0.N) (d) : (dat0 V c).before 0 t d = iblk0 V c 0 t :=
  (dat0 V c).before_in_eq_fetched 0 rfl (fun _ => rfl) (fun _ _ _ => rfl) (fun _ => rfl) t d
theorem before0_1 (c : Dev nD) (t : Fin cfg0.N) (d) : (dat0 V c).before 1 t d = iblk0 V c 1 t :=
  (dat0 V c).before_in_eq_fetched 1 rfl (fun _ => rfl) (fun _ _ _ => rfl) (fun _ => rfl) t d
theorem before0_2 (c : Dev nD) (t : Fin cfg0.N) (d) : (dat0 V c).before 2 t d = iblk0 V c 2 t :=
  (dat0 V c).before_in_eq_fetched 2 rfl (fun _ => rfl) (fun _ _ _ => rfl) (fun _ => rfl) t d

theorem body_obligation0 (c : Dev nD) : BodyObligation (dat0 (F := F) V c) (defs₀ (F := F)) Variants.none () Set.univ := fun t => by
  rw [bigSep_W0, bigSep_W0]
  exact sound_kernel0 c (grid0.coords t) _ (stage_whole0 0 _) _ (stage_whole0 1 _) _ (stage_whole0 2 _) _ (stage_whole0 3 _)
    (before0_0 V c t) (before0_1 V c t) (before0_2 V c t) (after0_3 V c t) _ _

end Cert.Kernel.Hand
-- ==== Proof.K.Lin1.lean ====
import proofs.«431499_j78546361909690_1_alg».proof.Proof.K.Lin0

noncomputable section

namespace Cert.Kernel.Hand

open Cert.Kernel Cert.Kernel.Gen Idealize.ShloMosaic Idealize.ShloMosaic.TcCoe Idealize.SL Idealize.SL.RA Idealize.SL.Sem
open Idealize.ShloMosaic.Pipeline (Dat BodyObligation)

variable {F : FTy → Type} [FloatOps F]

abbrev out1_3 (x0 : Vec F S5000x384 .f32) (x1 : Vec F S384x128 .f32) (x2 : Vec F S128 .f32) : Vec F S5000x128 .f32 := out0_3 x0 x1 x2

variable (V : (c : Dev nD) → (b : Ref sig .tc) → Buf (Elt F) ((c : Thread nD τ).loc b))

-- The block of window w at grid point t, read from the window's array in V.
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

-- The region's proof data at entry contents V: after the body each input holds its block, the output out0_3 of the three.
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
  Φ _ := Pipeline.ΦA spec1 c
  q _ := fullShare
  owed _ := 0

theorem after1_3 (c : Dev nD) (t : Fin cfg1.N) :
    (dat1 V c).after 3 t = out1_3 (iblk1 V c 0 t) (iblk1 V c 1 t) (iblk1 V c 2 t) := by dsimp only [dat1]
theorem A_eq1 (c : Dev nD) (w : Fin cfg1.W) : (dat1 V c).A w = V c (Pipeline.arrRef spec1 w) := rfl

-- The body writes no input, so what an input holds before the body is the block it holds after it.
theorem before1_0 (c : Dev nD) (t : Fin cfg1.N) (d) : (dat1 V c).before 0 t d = iblk1 V c 0 t :=
  (dat1 V c).before_in_eq_fetched 0 rfl (fun _ => rfl) (fun _ _ _ => rfl) (fun _ => rfl) t d
theorem before1_1 (c : Dev nD) (t : Fin cfg1.N) (d) : (dat1 V c).before 1 t d = iblk1 V c 1 t :=
  (dat1 V c).before_in_eq_fetched 1 rfl (fun _ => rfl) (fun _ _ _ => rfl) (fun _ => rfl) t d
theorem before1_2 (c : Dev nD) (t : Fin cfg1.N) (d) : (dat1 V c).before 2 t d = iblk1 V c 2 t :=
  (dat1 V c).before_in_eq_fetched 2 rfl (fun _ => rfl) (fun _ _ _ => rfl) (fun _ => rfl) t d

theorem body_obligation1 (c : Dev nD) : BodyObligation (dat1 (F := F) V c) (defs₀ (F := F)) Variants.none () Set.univ := fun t => by
  rw [bigSep_W0, bigSep_W0]
  exact sound_kernel0 c (grid1.coords t) _ (stage_whole1 0 _) _ (stage_whole1 1 _) _ (stage_whole1 2 _) _ (stage_whole1 3 _)
    (before1_0 V c t) (before1_1 V c t) (before1_2 V c t) (after1_3 V c t) _ _

end Cert.Kernel.Hand
-- ==== Proof.K.Lin2.lean ====
import proofs.«431499_j78546361909690_1_alg».proof.Proof.K.Lin0

noncomputable section

namespace Cert.Kernel.Hand

open Cert.Kernel Cert.Kernel.Gen Idealize.ShloMosaic Idealize.ShloMosaic.TcCoe Idealize.SL Idealize.SL.RA Idealize.SL.Sem
open Idealize.ShloMosaic.Pipeline (Dat BodyObligation)

variable {F : FTy → Type} [FloatOps F]

abbrev out2_3 (x0 : Vec F S5000x384 .f32) (x1 : Vec F S384x128 .f32) (x2 : Vec F S128 .f32) : Vec F S5000x128 .f32 := out0_3 x0 x1 x2

variable (V : (c : Dev nD) → (b : Ref sig .tc) → Buf (Elt F) ((c : Thread nD τ).loc b))

-- The block of window w at grid point t, read from the window's array in V.
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

-- The region's proof data at entry contents V: after the body each input holds its block, the output out0_3 of the three.
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => out2_3 (iblk2 V c 0 t) (iblk2 V c 1 t) (iblk2 V c 2 t)
  Φ _ := Pipeline.ΦA spec2 c
  q _ := fullShare
  owed _ := 0

theorem after2_3 (c : Dev nD) (t : Fin cfg2.N) :
    (dat2 V c).after 3 t = out2_3 (iblk2 V c 0 t) (iblk2 V c 1 t) (iblk2 V c 2 t) := by dsimp only [dat2]
theorem A_eq2 (c : Dev nD) (w : Fin cfg2.W) : (dat2 V c).A w = V c (Pipeline.arrRef spec2 w) := rfl

-- The body writes no input, so what an input holds before the body is the block it holds after it.
theorem before2_0 (c : Dev nD) (t : Fin cfg2.N) (d) : (dat2 V c).before 0 t d = iblk2 V c 0 t :=
  (dat2 V c).before_in_eq_fetched 0 rfl (fun _ => rfl) (fun _ _ _ => rfl) (fun _ => rfl) t d
theorem before2_1 (c : Dev nD) (t : Fin cfg2.N) (d) : (dat2 V c).before 1 t d = iblk2 V c 1 t :=
  (dat2 V c).before_in_eq_fetched 1 rfl (fun _ => rfl) (fun _ _ _ => rfl) (fun _ => rfl) t d
theorem before2_2 (c : Dev nD) (t : Fin cfg2.N) (d) : (dat2 V c).before 2 t d = iblk2 V c 2 t :=
  (dat2 V c).before_in_eq_fetched 2 rfl (fun _ => rfl) (fun _ _ _ => rfl) (fun _ => rfl) t d

theorem body_obligation2 (c : Dev nD) : BodyObligation (dat2 (F := F) V c) (defs₀ (F := F)) Variants.none () Set.univ := fun t => by
  rw [bigSep_W0, bigSep_W0]
  exact sound_kernel0 c (grid2.coords t) _ (stage_whole2 0 _) _ (stage_whole2 1 _) _ (stage_whole2 2 _) _ (stage_whole2 3 _)
    (before2_0 V c t) (before2_1 V c t) (before2_2 V c t) (after2_3 V c t) _ _

end Cert.Kernel.Hand
-- ==== Proof.K.Readout.lean ====
import proofs.«431499_j78546361909690_1_alg».proof.Proof.Gen.Kernel.Launch
import proofs.«431499_j78546361909690_1_alg».proof.Proof.Gen.Kernel.Skeleton
import proofs.«431499_j78546361909690_1_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The block of array `w` that grid point `t` reads, at the contents `V` gives the arrays. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

abbrev cond3_0 (i : grid3.Coords) : Prop := (Scalar.cmpi .ne (Scalar.extui (Scalar.cmpi .eq (BitVec.ofNat 32 (i 0).val) 0#32)) 0#32) = 1#1
theorem hcond3_0 : ∀ t : Fin cfg3.N, cond3_0 (grid3.coords t) ↔ t.val = 0 := by decide +kernel
abbrev cond3_1 (i : grid3.Coords) : Prop := k3_cond2 i = 1#1
theorem hcond3_1 : ∀ t : Fin cfg3.N, cond3_1 (grid3.coords t) ↔ t.val = 9 := by decide +kernel

theorem idle3_4 : ∀ t : Fin cfg3.N, t.val ≠ 9 → cfg3.idle 4 (grid3.coords t) = true ∧ (cfg3.win 4).flush t = false := by decide +kernel
theorem live3_4 : ∀ t : Fin cfg3.N, t.val = 9 → cfg3.idle 4 (grid3.coords t) = false := by decide +kernel

abbrev VO3_4 : View sig .tc .vmem S128x10 .f32 := (Memref.whole cc3_stg4_0 : Memref sig .tc .vmem S128x10 .f32).view
abbrev ms3_0 (t : Fin cfg3.N) : Memref sig .tc .vmem S5000x128 .f32 := win3_0.stage (cfg3.slots t 0)
abbrev hs3_0 (t : Fin cfg3.N) : (ms3_0 t).IsWhole := hstage3_0 ((cfg3.slots t 0).cast nbuf3_0)
abbrev ms3_1 (t : Fin cfg3.N) : Memref sig .tc .vmem S5000x1 .i32 := win3_1.stage (cfg3.slots t 1)
abbrev hs3_1 (t : Fin cfg3.N) : (ms3_1 t).IsWhole := hstage3_1 ((cfg3.slots t 1).cast nbuf3_1)
abbrev ms3_2 (t : Fin cfg3.N) : Memref sig .tc .vmem S128x10 .f32 := win3_2.stage (cfg3.slots t 2)
abbrev hs3_2 (t : Fin cfg3.N) : (ms3_2 t).IsWhole := hstage3_2 ((cfg3.slots t 2).cast nbuf3_2)
abbrev ms3_3 (t : Fin cfg3.N) : Memref sig .tc .vmem S10 .f32 := win3_3.stage (cfg3.slots t 3)
abbrev hs3_3 (t : Fin cfg3.N) : (ms3_3 t).IsWhole := hstage3_3 ((cfg3.slots t 3).cast nbuf3_3)
abbrev ms3_4 (t : Fin cfg3.N) : Memref sig .tc .vmem S128x10 .f32 := win3_4.stage (cfg3.slots t 4)
abbrev hs3_4 (t : Fin cfg3.N) : (ms3_4 t).IsWhole := hstage3_4 ((cfg3.slots t 4).cast nbuf3_4)
abbrev scM3_0 : Memref sig .tc .vmem S128x128 .f32 := Memref.whole cc3_scratch0
abbrev scM3_1 : Memref sig .tc .vmem S128x1 .f32 := Memref.whole cc3_scratch1
abbrev VS3_0 : View sig .tc .vmem S128x128 .f32 := scM3_0.view
abbrev VS3_1 : View sig .tc .vmem S128x1 .f32 := scM3_1.view

/-- Every other buffer the region owns besides the two accumulators, each at some contents. -/
def others3 (c : Dev nD) : sProp 𝕄 := Pipeline.scopedRestBut spec3 c [cc3_scratch0, cc3_scratch1]

/-- The accumulators (per-graph sums and counts) hold the last two components of `p`; nothing is said of the other buffers. -/
def Phi3At (c : Dev nD) (p : Vec F S128x10 .f32 × Vec F S128x128 .f32 × Vec F S128x1 .f32) : sProp 𝕄 :=
  iprop(((owns c.tc scM3_0 fullShare p.2.1 ∗ owns c.tc scM3_1 fullShare p.2.2) ∗ others3 c) ∗ ∃ r, prngReg c r)

/-- The invariant the region starts and ends with, with the two accumulators set apart at arbitrary contents. -/
theorem PhiA3_eq (c : Dev nD) : (Pipeline.ΦA spec3 c : sProp 𝕄)
    = iprop((((∃ d, owns c.tc scM3_0 fullShare d) ∗ (∃ d, owns c.tc scM3_1 fullShare d)) ∗ others3 c) ∗ ∃ r, prngReg c r) := by
  unfold Pipeline.ΦA others3
  rw [Pipeline.scopedRest_split_of_list spec3 c [cc3_scratch0, cc3_scratch1] (by decide) (by decide)]
  simp only [scM3_0, scM3_1, owns_whole, bigSepL_cons_cons, bigSepL_singleton]; rfl

/-- Reading a whole buffer is a bijection, so a whole memref is owned at `x` exactly when its buffer holds the one contents that read as `x`. -/
private theorem owns_unread {s : Shape} {e : EltTy} (c : Dev nD) {m : Memref sig .tc .vmem s e} (h : m.IsWhole) (x : Vec F s e) :
    (owns c.tc m fullShare x : sProp 𝕄) = (m.view.loc c.tc ↦[m.view.set]{fullShare} h.unread x) := by
  unfold owns
  refine BI.equiv_iff.mp ⟨?_, ?_⟩
  · show (_ : sProp 𝕄) ⊢ _; iintro ⟨%f, %hf, H⟩; obtain rfl := h.eq_unread hf; iexact H
  · show (_ : sProp 𝕄) ⊢ _; iintro H; iexists _; isplitr; · ipureintro; exact h.read_unread x
    iexact H

/-- Writes that cover the whole shape determine every entry read afterwards, whatever was there before. -/
private theorem owns_of_writes {s : Shape} {e : EltTy} (c : Dev nD) {m : Memref sig .tc .vmem s e} (v : View sig .tc .vmem s e) {L : List (View.Piece (Elt F) s e)}
    (hL : ∀ y, ∃ pc ∈ L, y ∈ pc.1.set) :
    iprop(∃ f, m.view.loc c.tc ↦[m.view.set]{fullShare} m.view.writes (Elt F) f L)
      ⊢ (owns c.tc m fullShare (v.read (Elt F) (v.writes (Elt F) v.junk L)) : sProp 𝕄) := by
  unfold owns; iintro ⟨%f, H⟩; iexists m.view.writes (Elt F) f L; isplitr
  · ipureintro; exact View.read_writes_of_cover _ _ _ _ _ hL
  · iexact H

section Runs
variable (c : Dev nD) (i : grid3.Coords) (arg1 : Memref sig .tc .vmem S5000x128 .f32) (harg1 : arg1.IsWhole) (arg2 : Memref sig .tc .vmem S5000x1 .i32) (harg2 : arg2.IsWhole) (arg3 : Memref sig .tc .vmem S128x10 .f32) (harg3 : arg3.IsWhole) (arg4 : Memref sig .tc .vmem S10 .f32) (harg4 : arg4.IsWhole) (arg5 : Memref sig .tc .vmem S128x10 .f32) (harg5 : arg5.IsWhole) (arg6 : Memref sig .tc .vmem S128x128 .f32) (harg6 : arg6.IsWhole) (arg7 : Memref sig .tc .vmem S128x1 .f32) (harg7 : arg7.IsWhole)

section A
variable (hc0 : cond3_0 i) (hc1 : ¬cond3_1 i)
  (x0 : Vec F S5000x128 .f32) (x1 : Vec F S5000x1 .i32) (x2 : Vec F S128x10 .f32) (x3 : Vec F S10 .f32)

noncomputable def kernelRun3_A :
    Σ' (L4 : List (View.Piece (Elt F) S128x10 .f32)) (LS0 : List (View.Piece (Elt F) S128x128 .f32)), { LS1 : List (View.Piece (Elt F) S128x1 .f32) //
      ∀ (xi4 : Vec F S128x10 .f32) (E : Set ℕ) (K : PUnit → sProp 𝕄),
        iprop(owns c.tc arg1 fullShare x0 ∗ owns c.tc arg2 fullShare x1 ∗ owns c.tc arg3 fullShare x2 ∗ owns c.tc arg4 fullShare x3 ∗ owns c.tc arg5 fullShare xi4 ∗ (∃ d, owns c.tc arg6 fullShare d) ∗ (∃ d, owns c.tc arg7 fullShare d)
            ∗ (iprop(owns c.tc arg1 fullShare x0 ∗ owns c.tc arg2 fullShare x1 ∗ owns c.tc arg3 fullShare x2 ∗ owns c.tc arg4 fullShare x3 ∗ owns c.tc arg5 fullShare xi4 ∗ (∃ f, arg6.view.loc c.tc ↦[arg6.view.set]{fullShare} arg6.view.writes (Elt F) f LS0) ∗ (∃ f, arg7.view.loc c.tc ↦[arg7.view.set]{fullShare} arg7.view.writes (Elt F) f LS1)) -∗ K ⟨⟩))
          ⊢ wp frame (wpE (defs₀ (F := F)) Variants.none c none) E (cc3__readout_kernel i arg1 harg1 arg2 harg2 arg3 harg3 arg4 harg4 arg5 harg5 arg6 harg6 arg7 harg7) K } := by
  refine ⟨[], ?_, ?_, fun xi4 E K => ?run⟩
  case run =>
    simp only [owns_unread c harg1, owns_unread c harg2, owns_unread c harg3, owns_unread c harg4, owns_unread c harg5, owns_unread c harg6, owns_unread c harg7]
    simp only [cc3__readout_kernel_eq_skeleton]; unfold cc3__readout_kernel_skel
    iintro ⟨H0, H1, H2, H3, H4, ⟨%ds0, HS0⟩, ⟨%ds1, HS1⟩, Hk⟩
    sl_exec (disch := first | exact hc0 | exact hc1)
    sl_step
    iapply Hk
    iframe H0 H1 H2 H3 H4
    isplitl [HS0]; · iexists _; iexact HS0
    iexists _; iexact HS1

def out3_A_4 : Vec F S128x10 .f32 :=
  VO3_4.read (Elt F) (VO3_4.writes (Elt F) VO3_4.junk (kernelRun3_A c i arg1 harg1 arg2 harg2 arg3 harg3 arg4 harg4 arg5 harg5 arg6 harg6 arg7 harg7 hc0 hc1 x0 x1 x2 x3).1)

theorem scover3_A_0 (y : S128x128.Idx) :
    ∃ pc ∈ (kernelRun3_A c i arg1 harg1 arg2 harg2 arg3 harg3 arg4 harg4 arg5 harg5 arg6 harg6 arg7 harg7 hc0 hc1 x0 x1 x2 x3).2.1, y ∈ pc.1.set :=
  View.cover_of_tiledL _ S128x128.size (by sl_kernel_rfl) y

def sout3_A_0 : Vec F S128x128 .f32 :=
  VS3_0.read (Elt F) (VS3_0.writes (Elt F) VS3_0.junk (kernelRun3_A c i arg1 harg1 arg2 harg2 arg3 harg3 arg4 harg4 arg5 harg5 arg6 harg6 arg7 harg7 hc0 hc1 x0 x1 x2 x3).2.1)

theorem scover3_A_1 (y : S128x1.Idx) :
    ∃ pc ∈ (kernelRun3_A c i arg1 harg1 arg2 harg2 arg3 harg3 arg4 harg4 arg5 harg5 arg6 harg6 arg7 harg7 hc0 hc1 x0 x1 x2 x3).2.2.1, y ∈ pc.1.set :=
  View.cover_of_tiledL _ S128x1.size (by sl_kernel_rfl) y

def sout3_A_1 : Vec F S128x1 .f32 :=
  VS3_1.read (Elt F) (VS3_1.writes (Elt F) VS3_1.junk (kernelRun3_A c i arg1 harg1 arg2 harg2 arg3 harg3 arg4 harg4 arg5 harg5 arg6 harg6 arg7 harg7 hc0 hc1 x0 x1 x2 x3).2.2.1)

def outs3_A : Vec F S128x10 .f32 × Vec F S128x128 .f32 × Vec F S128x1 .f32 :=
  (out3_A_4 c i arg1 harg1 arg2 harg2 arg3 harg3 arg4 harg4 arg5 harg5 arg6 harg6 arg7 harg7 hc0 hc1 x0 x1 x2 x3, sout3_A_0 c i arg1 harg1 arg2 harg2 arg3 harg3 arg4 harg4 arg5 harg5 arg6 harg6 arg7 harg7 hc0 hc1 x0 x1 x2 x3, sout3_A_1 c i arg1 harg1 arg2 harg2 arg3 harg3 arg4 harg4 arg5 harg5 arg6 harg6 arg7 harg7 hc0 hc1 x0 x1 x2 x3)

end A

section B
variable (hc0 : ¬cond3_0 i) (hc1 : ¬cond3_1 i)
  (x0 : Vec F S5000x128 .f32) (x1 : Vec F S5000x1 .i32) (x2 : Vec F S128x10 .f32) (x3 : Vec F S10 .f32) (xs0 : Vec F S128x128 .f32) (xs1 : Vec F S128x1 .f32)

noncomputable def kernelRun3_B :
    Σ' (L4 : List (View.Piece (Elt F) S128x10 .f32)) (LS0 : List (View.Piece (Elt F) S128x128 .f32)), { LS1 : List (View.Piece (Elt F) S128x1 .f32) //
      ∀ (xi4 : Vec F S128x10 .f32) (E : Set ℕ) (K : PUnit → sProp 𝕄),
        iprop(owns c.tc arg1 fullShare x0 ∗ owns c.tc arg2 fullShare x1 ∗ owns c.tc arg3 fullShare x2 ∗ owns c.tc arg4 fullShare x3 ∗ owns c.tc arg5 fullShare xi4 ∗ owns c.tc arg6 fullShare xs0 ∗ owns c.tc arg7 fullShare xs1
            ∗ (iprop(owns c.tc arg1 fullShare x0 ∗ owns c.tc arg2 fullShare x1 ∗ owns c.tc arg3 fullShare x2 ∗ owns c.tc arg4 fullShare x3 ∗ owns c.tc arg5 fullShare xi4 ∗ (∃ f, arg6.view.loc c.tc ↦[arg6.view.set]{fullShare} arg6.view.writes (Elt F) f LS0) ∗ (∃ f, arg7.view.loc c.tc ↦[arg7.view.set]{fullShare} arg7.view.writes (Elt F) f LS1)) -∗ K ⟨⟩))
          ⊢ wp frame (wpE (defs₀ (F := F)) Variants.none c none) E (cc3__readout_kernel i arg1 harg1 arg2 harg2 arg3 harg3 arg4 harg4 arg5 harg5 arg6 harg6 arg7 harg7) K } := by
  refine ⟨[], ?_, ?_, fun xi4 E K => ?run⟩
  case run =>
    simp only [owns_unread c harg1, owns_unread c harg2, owns_unread c harg3, owns_unread c harg4, owns_unread c harg5, owns_unread c harg6, owns_unread c harg7]
    simp only [cc3__readout_kernel_eq_skeleton]; unfold cc3__readout_kernel_skel
    iintro ⟨H0, H1, H2, H3, H4, HS0, HS1, Hk⟩
    sl_exec (disch := first | exact hc0 | exact hc1)
    sl_step
    iapply Hk
    iframe H0 H1 H2 H3 H4
    isplitl [HS0]; · iexists _; iexact HS0
    iexists _; iexact HS1

def out3_B_4 : Vec F S128x10 .f32 :=
  VO3_4.read (Elt F) (VO3_4.writes (Elt F) VO3_4.junk (kernelRun3_B c i arg1 harg1 arg2 harg2 arg3 harg3 arg4 harg4 arg5 harg5 arg6 harg6 arg7 harg7 hc0 hc1 x0 x1 x2 x3 xs0 xs1).1)

theorem scover3_B_0 (y : S128x128.Idx) :
    ∃ pc ∈ (kernelRun3_B c i arg1 harg1 arg2 harg2 arg3 harg3 arg4 harg4 arg5 harg5 arg6 harg6 arg7 harg7 hc0 hc1 x0 x1 x2 x3 xs0 xs1).2.1, y ∈ pc.1.set :=
  View.cover_of_tiledL _ S128x128.size (by sl_kernel_rfl) y

def sout3_B_0 : Vec F S128x128 .f32 :=
  VS3_0.read (Elt F) (VS3_0.writes (Elt F) VS3_0.junk (kernelRun3_B c i arg1 harg1 arg2 harg2 arg3 harg3 arg4 harg4 arg5 harg5 arg6 harg6 arg7 harg7 hc0 hc1 x0 x1 x2 x3 xs0 xs1).2.1)

theorem scover3_B_1 (y : S128x1.Idx) :
    ∃ pc ∈ (kernelRun3_B c i arg1 harg1 arg2 harg2 arg3 harg3 arg4 harg4 arg5 harg5 arg6 harg6 arg7 harg7 hc0 hc1 x0 x1 x2 x3 xs0 xs1).2.2.1, y ∈ pc.1.set :=
  View.cover_of_tiledL _ S128x1.size (by sl_kernel_rfl) y

def sout3_B_1 : Vec F S128x1 .f32 :=
  VS3_1.read (Elt F) (VS3_1.writes (Elt F) VS3_1.junk (kernelRun3_B c i arg1 harg1 arg2 harg2 arg3 harg3 arg4 harg4 arg5 harg5 arg6 harg6 arg7 harg7 hc0 hc1 x0 x1 x2 x3 xs0 xs1).2.2.1)

def outs3_B : Vec F S128x10 .f32 × Vec F S128x128 .f32 × Vec F S128x1 .f32 :=
  (out3_B_4 c i arg1 harg1 arg2 harg2 arg3 harg3 arg4 harg4 arg5 harg5 arg6 harg6 arg7 harg7 hc0 hc1 x0 x1 x2 x3 xs0 xs1, sout3_B_0 c i arg1 harg1 arg2 harg2 arg3 harg3 arg4 harg4 arg5 harg5 arg6 harg6 arg7 harg7 hc0 hc1 x0 x1 x2 x3 xs0 xs1, sout3_B_1 c i arg1 harg1 arg2 harg2 arg3 harg3 arg4 harg4 arg5 harg5 arg6 harg6 arg7 harg7 hc0 hc1 x0 x1 x2 x3 xs0 xs1)

end B

section C
variable (hc0 : ¬cond3_0 i) (hc1 : cond3_1 i)
  (x0 : Vec F S5000x128 .f32) (x1 : Vec F S5000x1 .i32) (x2 : Vec F S128x10 .f32) (x3 : Vec F S10 .f32) (xs0 : Vec F S128x128 .f32) (xs1 : Vec F S128x1 .f32)

noncomputable def kernelRun3_C :
    Σ' (L4 : List (View.Piece (Elt F) S128x10 .f32)) (LS0 : List (View.Piece (Elt F) S128x128 .f32)), { LS1 : List (View.Piece (Elt F) S128x1 .f32) //
      ∀ (E : Set ℕ) (K : PUnit → sProp 𝕄),
        iprop(owns c.tc arg1 fullShare x0 ∗ owns c.tc arg2 fullShare x1 ∗ owns c.tc arg3 fullShare x2 ∗ owns c.tc arg4 fullShare x3 ∗ (∃ d, owns c.tc arg5 fullShare d) ∗ owns c.tc arg6 fullShare xs0 ∗ owns c.tc arg7 fullShare xs1
            ∗ (iprop(owns c.tc arg1 fullShare x0 ∗ owns c.tc arg2 fullShare x1 ∗ owns c.tc arg3 fullShare x2 ∗ owns c.tc arg4 fullShare x3 ∗ (∃ f, arg5.view.loc c.tc ↦[arg5.view.set]{fullShare} arg5.view.writes (Elt F) f L4) ∗ (∃ f, arg6.view.loc c.tc ↦[arg6.view.set]{fullShare} arg6.view.writes (Elt F) f LS0) ∗ (∃ f, arg7.view.loc c.tc ↦[arg7.view.set]{fullShare} arg7.view.writes (Elt F) f LS1)) -∗ K ⟨⟩))
          ⊢ wp frame (wpE (defs₀ (F := F)) Variants.none c none) E (cc3__readout_kernel i arg1 harg1 arg2 harg2 arg3 harg3 arg4 harg4 arg5 harg5 arg6 harg6 arg7 harg7) K } := by
  refine ⟨?_, ?_, ?_, fun E K => ?run⟩
  case run =>
    simp only [owns_unread c harg1, owns_unread c harg2, owns_unread c harg3, owns_unread c harg4, owns_unread c harg5, owns_unread c harg6, owns_unread c harg7]
    simp only [cc3__readout_kernel_eq_skeleton]; unfold cc3__readout_kernel_skel
    iintro ⟨H0, H1, H2, H3, ⟨%d4, H4⟩, HS0, HS1, Hk⟩
    sl_exec (disch := first | exact hc0 | exact hc1)
    sl_step
    iapply Hk
    iframe H0 H1 H2 H3
    isplitl [H4]; · iexists _; iexact H4
    isplitl [HS0]; · iexists _; iexact HS0
    iexists _; iexact HS1

theorem cover3_C_4 (y : S128x10.Idx) :
    ∃ pc ∈ (kernelRun3_C c i arg1 harg1 arg2 harg2 arg3 harg3 arg4 harg4 arg5 harg5 arg6 harg6 arg7 harg7 hc0 hc1 x0 x1 x2 x3 xs0 xs1).1, y ∈ pc.1.set :=
  View.cover_of_tiledL _ S128x10.size (by sl_kernel_rfl) y

def out3_C_4 : Vec F S128x10 .f32 :=
  VO3_4.read (Elt F) (VO3_4.writes (Elt F) VO3_4.junk (kernelRun3_C c i arg1 harg1 arg2 harg2 arg3 harg3 arg4 harg4 arg5 harg5 arg6 harg6 arg7 harg7 hc0 hc1 x0 x1 x2 x3 xs0 xs1).1)

theorem scover3_C_0 (y : S128x128.Idx) :
    ∃ pc ∈ (kernelRun3_C c i arg1 harg1 arg2 harg2 arg3 harg3 arg4 harg4 arg5 harg5 arg6 harg6 arg7 harg7 hc0 hc1 x0 x1 x2 x3 xs0 xs1).2.1, y ∈ pc.1.set :=
  View.cover_of_tiledL _ S128x128.size (by sl_kernel_rfl) y

def sout3_C_0 : Vec F S128x128 .f32 :=
  VS3_0.read (Elt F) (VS3_0.writes (Elt F) VS3_0.junk (kernelRun3_C c i arg1 harg1 arg2 harg2 arg3 harg3 arg4 harg4 arg5 harg5 arg6 harg6 arg7 harg7 hc0 hc1 x0 x1 x2 x3 xs0 xs1).2.1)

theorem scover3_C_1 (y : S128x1.Idx) :
    ∃ pc ∈ (kernelRun3_C c i arg1 harg1 arg2 harg2 arg3 harg3 arg4 harg4 arg5 harg5 arg6 harg6 arg7 harg7 hc0 hc1 x0 x1 x2 x3 xs0 xs1).2.2.1, y ∈ pc.1.set :=
  View.cover_of_tiledL _ S128x1.size (by sl_kernel_rfl) y

def sout3_C_1 : Vec F S128x1 .f32 :=
  VS3_1.read (Elt F) (VS3_1.writes (Elt F) VS3_1.junk (kernelRun3_C c i arg1 harg1 arg2 harg2 arg3 harg3 arg4 harg4 arg5 harg5 arg6 harg6 arg7 harg7 hc0 hc1 x0 x1 x2 x3 xs0 xs1).2.2.1)

def outs3_C : Vec F S128x10 .f32 × Vec F S128x128 .f32 × Vec F S128x1 .f32 :=
  (out3_C_4 c i arg1 harg1 arg2 harg2 arg3 harg3 arg4 harg4 arg5 harg5 arg6 harg6 arg7 harg7 hc0 hc1 x0 x1 x2 x3 xs0 xs1, sout3_C_0 c i arg1 harg1 arg2 harg2 arg3 harg3 arg4 harg4 arg5 harg5 arg6 harg6 arg7 harg7 hc0 hc1 x0 x1 x2 x3 xs0 xs1, sout3_C_1 c i arg1 harg1 arg2 harg2 arg3 harg3 arg4 harg4 arg5 harg5 arg6 harg6 arg7 harg7 hc0 hc1 x0 x1 x2 x3 xs0 xs1)

end C

end Runs

/-- The result block and the two accumulators after grid point `n`: the first point starts from cleared accumulators, each later one from what its predecessor left, and the last also forms the result. -/
def outsAt3 (c : Dev nD) : (n : ℕ) → n < cfg3.N → Vec F S128x10 .f32 × Vec F S128x128 .f32 × Vec F S128x1 .f32
  | 0, hn => outs3_A c (grid3.coords ⟨0, hn⟩) _ (hs3_0 ⟨0, hn⟩) _ (hs3_1 ⟨0, hn⟩) _ (hs3_2 ⟨0, hn⟩) _ (hs3_3 ⟨0, hn⟩) _ (hs3_4 ⟨0, hn⟩) scM3_0 (Memref.isWhole_whole _) scM3_1 (Memref.isWhole_whole _) ((hcond3_0 ⟨0, hn⟩).mpr rfl) (mt (hcond3_1 ⟨0, hn⟩).mp (show ¬ (0 : ℕ) = 9 by decide)) (iblk3 V c 0 ⟨0, hn⟩) (iblk3 V c 1 ⟨0, hn⟩) (iblk3 V c 2 ⟨0, hn⟩) (iblk3 V c 3 ⟨0, hn⟩)
  | n + 1, hn =>
    if h1 : n + 1 = 9 then
      outs3_C c (grid3.coords ⟨n + 1, hn⟩) _ (hs3_0 ⟨n + 1, hn⟩) _ (hs3_1 ⟨n + 1, hn⟩) _ (hs3_2 ⟨n + 1, hn⟩) _ (hs3_3 ⟨n + 1, hn⟩) _ (hs3_4 ⟨n + 1, hn⟩) scM3_0 (Memref.isWhole_whole _) scM3_1 (Memref.isWhole_whole _) (mt (hcond3_0 ⟨n + 1, hn⟩).mp n.succ_ne_zero) ((hcond3_1 ⟨n + 1, hn⟩).mpr h1) (iblk3 V c 0 ⟨n + 1, hn⟩) (iblk3 V c 1 ⟨n + 1, hn⟩) (iblk3 V c 2 ⟨n + 1, hn⟩) (iblk3 V c 3 ⟨n + 1, hn⟩) (outsAt3 c n (Nat.lt_of_succ_lt hn)).2.1 (outsAt3 c n (Nat.lt_of_succ_lt hn)).2.2
    else
      outs3_B c (grid3.coords ⟨n + 1, hn⟩) _ (hs3_0 ⟨n + 1, hn⟩) _ (hs3_1 ⟨n + 1, hn⟩) _ (hs3_2 ⟨n + 1, hn⟩) _ (hs3_3 ⟨n + 1, hn⟩) _ (hs3_4 ⟨n + 1, hn⟩) scM3_0 (Memref.isWhole_whole _) scM3_1 (Memref.isWhole_whole _) (mt (hcond3_0 ⟨n + 1, hn⟩).mp n.succ_ne_zero) (mt (hcond3_1 ⟨n + 1, hn⟩).mp h1) (iblk3 V c 0 ⟨n + 1, hn⟩) (iblk3 V c 1 ⟨n + 1, hn⟩) (iblk3 V c 2 ⟨n + 1, hn⟩) (iblk3 V c 3 ⟨n + 1, hn⟩) (outsAt3 c n (Nat.lt_of_succ_lt hn)).2.1 (outsAt3 c n (Nat.lt_of_succ_lt hn)).2.2

theorem outsAt3_A (c : Dev nD) (t : Fin cfg3.N) (h0 : t.val = 0) (h1 : ¬t.val = 9) :
    outsAt3 V c t.val t.isLt = (out3_A_4 c (grid3.coords t) (ms3_0 t) (hs3_0 t) (ms3_1 t) (hs3_1 t) (ms3_2 t) (hs3_2 t) (ms3_3 t) (hs3_3 t) (ms3_4 t) (hs3_4 t) scM3_0 (Memref.isWhole_whole _) scM3_1 (Memref.isWhole_whole _) ((hcond3_0 t).mpr h0) (fun h => h1 ((hcond3_1 t).mp h)) (iblk3 V c 0 t) (iblk3 V c 1 t) (iblk3 V c 2 t) (iblk3 V c 3 t),
      sout3_A_0 c (grid3.coords t) (ms3_0 t) (hs3_0 t) (ms3_1 t) (hs3_1 t) (ms3_2 t) (hs3_2 t) (ms3_3 t) (hs3_3 t) (ms3_4 t) (hs3_4 t) scM3_0 (Memref.isWhole_whole _) scM3_1 (Memref.isWhole_whole _) ((hcond3_0 t).mpr h0) (fun h => h1 ((hcond3_1 t).mp h)) (iblk3 V c 0 t) (iblk3 V c 1 t) (iblk3 V c 2 t) (iblk3 V c 3 t),
      sout3_A_1 c (grid3.coords t) (ms3_0 t) (hs3_0 t) (ms3_1 t) (hs3_1 t) (ms3_2 t) (hs3_2 t) (ms3_3 t) (hs3_3 t) (ms3_4 t) (hs3_4 t) scM3_0 (Memref.isWhole_whole _) scM3_1 (Memref.isWhole_whole _) ((hcond3_0 t).mpr h0) (fun h => h1 ((hcond3_1 t).mp h)) (iblk3 V c 0 t) (iblk3 V c 1 t) (iblk3 V c 2 t) (iblk3 V c 3 t)) := by
  obtain ⟨_ | n, hn⟩ := t
  exacts [rfl, absurd h0 n.succ_ne_zero]

theorem outsAt3_B (c : Dev nD) (t : Fin cfg3.N) (h0 : ¬t.val = 0) (h1 : ¬t.val = 9) :
    outsAt3 V c t.val t.isLt = (out3_B_4 c (grid3.coords t) (ms3_0 t) (hs3_0 t) (ms3_1 t) (hs3_1 t) (ms3_2 t) (hs3_2 t) (ms3_3 t) (hs3_3 t) (ms3_4 t) (hs3_4 t) scM3_0 (Memref.isWhole_whole _) scM3_1 (Memref.isWhole_whole _) (fun h => h0 ((hcond3_0 t).mp h)) (fun h => h1 ((hcond3_1 t).mp h)) (iblk3 V c 0 t) (iblk3 V c 1 t) (iblk3 V c 2 t) (iblk3 V c 3 t) (outsAt3 V c (t.val - 1) (Nat.lt_of_le_of_lt (Nat.sub_le _ _) t.isLt)).2.1 (outsAt3 V c (t.val - 1) (Nat.lt_of_le_of_lt (Nat.sub_le _ _) t.isLt)).2.2,
      sout3_B_0 c (grid3.coords t) (ms3_0 t) (hs3_0 t) (ms3_1 t) (hs3_1 t) (ms3_2 t) (hs3_2 t) (ms3_3 t) (hs3_3 t) (ms3_4 t) (hs3_4 t) scM3_0 (Memref.isWhole_whole _) scM3_1 (Memref.isWhole_whole _) (fun h => h0 ((hcond3_0 t).mp h)) (fun h => h1 ((hcond3_1 t).mp h)) (iblk3 V c 0 t) (iblk3 V c 1 t) (iblk3 V c 2 t) (iblk3 V c 3 t) (outsAt3 V c (t.val - 1) (Nat.lt_of_le_of_lt (Nat.sub_le _ _) t.isLt)).2.1 (outsAt3 V c (t.val - 1) (Nat.lt_of_le_of_lt (Nat.sub_le _ _) t.isLt)).2.2,
      sout3_B_1 c (grid3.coords t) (ms3_0 t) (hs3_0 t) (ms3_1 t) (hs3_1 t) (ms3_2 t) (hs3_2 t) (ms3_3 t) (hs3_3 t) (ms3_4 t) (hs3_4 t) scM3_0 (Memref.isWhole_whole _) scM3_1 (Memref.isWhole_whole _) (fun h => h0 ((hcond3_0 t).mp h)) (fun h => h1 ((hcond3_1 t).mp h)) (iblk3 V c 0 t) (iblk3 V c 1 t) (iblk3 V c 2 t) (iblk3 V c 3 t) (outsAt3 V c (t.val - 1) (Nat.lt_of_le_of_lt (Nat.sub_le _ _) t.isLt)).2.1 (outsAt3 V c (t.val - 1) (Nat.lt_of_le_of_lt (Nat.sub_le _ _) t.isLt)).2.2) := by
  obtain ⟨_ | n, hn⟩ := t
  exacts [absurd rfl h0, (dif_neg h1).trans rfl]

theorem outsAt3_C (c : Dev nD) (t : Fin cfg3.N) (h0 : ¬t.val = 0) (h1 : t.val = 9) :
    outsAt3 V c t.val t.isLt = (out3_C_4 c (grid3.coords t) (ms3_0 t) (hs3_0 t) (ms3_1 t) (hs3_1 t) (ms3_2 t) (hs3_2 t) (ms3_3 t) (hs3_3 t) (ms3_4 t) (hs3_4 t) scM3_0 (Memref.isWhole_whole _) scM3_1 (Memref.isWhole_whole _) (fun h => h0 ((hcond3_0 t).mp h)) ((hcond3_1 t).mpr h1) (iblk3 V c 0 t) (iblk3 V c 1 t) (iblk3 V c 2 t) (iblk3 V c 3 t) (outsAt3 V c (t.val - 1) (Nat.lt_of_le_of_lt (Nat.sub_le _ _) t.isLt)).2.1 (outsAt3 V c (t.val - 1) (Nat.lt_of_le_of_lt (Nat.sub_le _ _) t.isLt)).2.2,
      sout3_C_0 c (grid3.coords t) (ms3_0 t) (hs3_0 t) (ms3_1 t) (hs3_1 t) (ms3_2 t) (hs3_2 t) (ms3_3 t) (hs3_3 t) (ms3_4 t) (hs3_4 t) scM3_0 (Memref.isWhole_whole _) scM3_1 (Memref.isWhole_whole _) (fun h => h0 ((hcond3_0 t).mp h)) ((hcond3_1 t).mpr h1) (iblk3 V c 0 t) (iblk3 V c 1 t) (iblk3 V c 2 t) (iblk3 V c 3 t) (outsAt3 V c (t.val - 1) (Nat.lt_of_le_of_lt (Nat.sub_le _ _) t.isLt)).2.1 (outsAt3 V c (t.val - 1) (Nat.lt_of_le_of_lt (Nat.sub_le _ _) t.isLt)).2.2,
      sout3_C_1 c (grid3.coords t) (ms3_0 t) (hs3_0 t) (ms3_1 t) (hs3_1 t) (ms3_2 t) (hs3_2 t) (ms3_3 t) (hs3_3 t) (ms3_4 t) (hs3_4 t) scM3_0 (Memref.isWhole_whole _) scM3_1 (Memref.isWhole_whole _) (fun h => h0 ((hcond3_0 t).mp h)) ((hcond3_1 t).mpr h1) (iblk3 V c 0 t) (iblk3 V c 1 t) (iblk3 V c 2 t) (iblk3 V c 3 t) (outsAt3 V c (t.val - 1) (Nat.lt_of_le_of_lt (Nat.sub_le _ _) t.isLt)).2.1 (outsAt3 V c (t.val - 1) (Nat.lt_of_le_of_lt (Nat.sub_le _ _) t.isLt)).2.2) := by
  obtain ⟨_ | n, hn⟩ := t
  exacts [absurd rfl h0, (dif_pos h1).trans rfl]

/-- The invariant before grid point `n`: the accumulators hold what point `n - 1` left. -/
def PhiS3 (c : Dev nD) : (n : ℕ) → n ≤ cfg3.N → sProp 𝕄
  | 0, _ => Pipeline.ΦA spec3 c
  | n + 1, hn => Phi3At c (outsAt3 V c n hn)

theorem PhiS3_zero (c : Dev nD) (n : ℕ) (h : n ≤ cfg3.N) (hz : n = 0) : PhiS3 V c n h = Pipeline.ΦA spec3 c := by
  subst hz; rfl

theorem PhiS3_pos (c : Dev nD) (n : ℕ) (h : n ≤ cfg3.N) (hz : n ≠ 0) : PhiS3 V c n h = Phi3At c (outsAt3 V c (n - 1) (by omega)) := by
  cases n with
  | zero => exact absurd rfl hz
  | succ n => rfl

def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => (outsAt3 V c t.val t.isLt).1
  Φ t := PhiS3 V c t.val (Nat.le_of_lt_succ t.isLt)
  q _ := fullShare
  owed _ := 0

theorem A_eq3 (c : Dev nD) (w : Fin cfg3.W) : (dat3 V c).A w = V c (Pipeline.arrRef spec3 w) := rfl

theorem PhiS3_castSucc (c : Dev nD) (t : Fin cfg3.N) :
    (dat3 V c).Φ t.castSucc = PhiS3 V c t.val (Nat.le_of_lt t.isLt) := rfl

theorem after3_4 (c : Dev nD) (t : Fin cfg3.N) : (dat3 V c).after 4 t = (outsAt3 V c t.val t.isLt).1 := rfl

theorem before3_0 (c : Dev nD) (t : Fin cfg3.N) (d) : (dat3 V c).before 0 t d = iblk3 V c 0 t :=
  (dat3 V c).before_in_eq_fetched 0 rfl (fun _ => rfl) (fun _ _ _ => rfl) (fun _ => rfl) t d
theorem before3_1 (c : Dev nD) (t : Fin cfg3.N) (d) : (dat3 V c).before 1 t d = iblk3 V c 1 t :=
  (dat3 V c).before_in_eq_fetched 1 rfl (fun _ => rfl) (fun _ _ _ => rfl) (fun _ => rfl) t d
theorem before3_2 (c : Dev nD) (t : Fin cfg3.N) (d) : (dat3 V c).before 2 t d = iblk3 V c 2 t :=
  (dat3 V c).before_in_eq_fetched 2 rfl (fun _ => rfl) (fun _ _ _ => rfl) (fun _ => rfl) t d
theorem before3_3 (c : Dev nD) (t : Fin cfg3.N) (d) : (dat3 V c).before 3 t d = iblk3 V c 3 t :=
  (dat3 V c).before_in_eq_fetched 3 rfl (fun _ => rfl) (fun _ _ _ => rfl) (fun _ => rfl) t d

set_option maxHeartbeats 1000000 in
/-- One grid point's body carries the invariant from `t` to `t + 1` and leaves every input block as it found it. -/
theorem sound_body3 (c : Dev nD) (t : Fin cfg3.N) :
    iprop((dat3 V c).Φ t.castSucc ∗ (dat3 V c).owesAt () t.castSucc
    ∗ (∃ d, owns c.tc (ms3_0 t) fullShare ((dat3 V c).before 0 t d))
    ∗ (∃ d, owns c.tc (ms3_1 t) fullShare ((dat3 V c).before 1 t d))
    ∗ (∃ d, owns c.tc (ms3_2 t) fullShare ((dat3 V c).before 2 t d))
    ∗ (∃ d, owns c.tc (ms3_3 t) fullShare ((dat3 V c).before 3 t d))
    ∗ (∃ d, owns c.tc (ms3_4 t) fullShare ((dat3 V c).before 4 t d)))
      ⊢ wp frame (wpE (defs₀ (F := F)) Variants.none c none) Set.univ (bodyAt3 t) fun _ =>
        iprop((dat3 V c).Φ t.succ ∗ (dat3 V c).owesAt () t.succ
    ∗ (dat3 V c).leavesExact 0 t
    ∗ (dat3 V c).leavesExact 1 t
    ∗ (dat3 V c).leavesExact 2 t
    ∗ (dat3 V c).leavesExact 3 t
    ∗ (dat3 V c).leavesExact 4 t) := by
  unfold bodyAt3
  simp only [before3_0, before3_1, before3_2, before3_3]
  rewrite [show (dat3 V c).owesAt () t.succ = (dat3 V c).owesAt () t.castSucc from rfl,
    show (dat3 V c).Φ t.succ = Phi3At c (outsAt3 V c t.val t.isLt) from rfl,
    show (dat3 V c).leavesExact 0 t = owns c.tc (ms3_0 t) fullShare (iblk3 V c 0 t) from rfl,
    show (dat3 V c).leavesExact 1 t = owns c.tc (ms3_1 t) fullShare (iblk3 V c 1 t) from rfl,
    show (dat3 V c).leavesExact 2 t = owns c.tc (ms3_2 t) fullShare (iblk3 V c 2 t) from rfl,
    show (dat3 V c).leavesExact 3 t = owns c.tc (ms3_3 t) fullShare (iblk3 V c 3 t) from rfl]
  have hN : t.val < 10 := lt_of_lt_of_eq t.isLt (show cfg3.N = 10 from N_3)
  by_cases h0 : t.val = 0
  · have h1 : ¬t.val = 9 := by omega
    rw [Dat.leavesExact_idle (dat3 V c) 4 t (idle3_4 t h1).1 (idle3_4 t h1).2, outsAt3_A V c t h0 h1]
    unfold Phi3At sout3_A_0 sout3_A_1; dsimp only
    rw [PhiS3_castSucc V c t, PhiS3_zero V c _ _ h0, PhiA3_eq]
    iintro ⟨⟨⟨⟨HS0, HS1⟩, Hoth⟩, Hg⟩, Ho, ⟨%d0, H0⟩, ⟨%d1, H1⟩, ⟨%d2, H2⟩, ⟨%d3, H3⟩, ⟨%d4, H4⟩⟩
    iapply ((kernelRun3_A c (grid3.coords t) _ _ _ _ _ _ _ _ _ _ _ _ _ _ ((hcond3_0 t).mpr h0) (mt (hcond3_1 t).mp h1) (iblk3 V c 0 t) (iblk3 V c 1 t) (iblk3 V c 2 t) (iblk3 V c 3 t)).2.2.2 _ Set.univ _)
    iframe H0 H1 H2 H3 H4 HS0 HS1
    iintro ⟨H0, H1, H2, H3, H4, HS0, HS1⟩
    ihave HT0 := owns_of_writes c VS3_0 (fun y => scover3_A_0 (y := y) ..) $$ HS0
    ihave HT1 := owns_of_writes c VS3_1 (fun y => scover3_A_1 (y := y) ..) $$ HS1
    iframe Hoth HT0 HT1 Hg Ho H0 H1 H2 H3
    iexists _; iexact H4
  · by_cases h1 : t.val = 9
    · rw [show (dat3 V c).leavesExact 4 t = owns c.tc (ms3_4 t) fullShare ((dat3 V c).after 4 t) from by
        unfold Dat.leavesExact; rw [live3_4 t h1], after3_4]
      rw [outsAt3_C V c t h0 h1]
      unfold Phi3At out3_C_4 sout3_C_0 sout3_C_1; dsimp only
      rw [PhiS3_castSucc V c t, PhiS3_pos V c _ _ h0]; unfold Phi3At
      iintro ⟨⟨⟨⟨HS0, HS1⟩, Hoth⟩, Hg⟩, Ho, ⟨%d0, H0⟩, ⟨%d1, H1⟩, ⟨%d2, H2⟩, ⟨%d3, H3⟩, ⟨%d4, H4⟩⟩
      iapply ((kernelRun3_C c (grid3.coords t) _ _ _ _ _ _ _ _ _ _ _ _ _ _ (mt (hcond3_0 t).mp h0) ((hcond3_1 t).mpr h1) (iblk3 V c 0 t) (iblk3 V c 1 t) (iblk3 V c 2 t) (iblk3 V c 3 t) _ _).2.2.2 Set.univ _)
      iframe H0 H1 H2 H3 HS0 HS1
      isplitl [H4]; · iexists _; iexact H4
      iintro ⟨H0, H1, H2, H3, H4, HS0, HS1⟩
      ihave HT4 := owns_of_writes c VO3_4 (fun y => cover3_C_4 (y := y) ..) $$ H4
      ihave HT0 := owns_of_writes c VS3_0 (fun y => scover3_C_0 (y := y) ..) $$ HS0
      ihave HT1 := owns_of_writes c VS3_1 (fun y => scover3_C_1 (y := y) ..) $$ HS1
      iframe
    · rw [Dat.leavesExact_idle (dat3 V c) 4 t (idle3_4 t h1).1 (idle3_4 t h1).2, outsAt3_B V c t h0 h1]
      unfold Phi3At sout3_B_0 sout3_B_1; dsimp only
      rw [PhiS3_castSucc V c t, PhiS3_pos V c _ _ h0]; unfold Phi3At
      iintro ⟨⟨⟨⟨HS0, HS1⟩, Hoth⟩, Hg⟩, Ho, ⟨%d0, H0⟩, ⟨%d1, H1⟩, ⟨%d2, H2⟩, ⟨%d3, H3⟩, ⟨%d4, H4⟩⟩
      iapply ((kernelRun3_B c (grid3.coords t) _ _ _ _ _ _ _ _ _ _ _ _ _ _ (mt (hcond3_0 t).mp h0) (mt (hcond3_1 t).mp h1) (iblk3 V c 0 t) (iblk3 V c 1 t) (iblk3 V c 2 t) (iblk3 V c 3 t) _ _).2.2.2 _ Set.univ _)
      iframe H0 H1 H2 H3 H4 HS0 HS1
      iintro ⟨H0, H1, H2, H3, H4, HS0, HS1⟩
      ihave HT0 := owns_of_writes c VS3_0 (fun y => scover3_B_0 (y := y) ..) $$ HS0
      ihave HT1 := owns_of_writes c VS3_1 (fun y => scover3_B_1 (y := y) ..) $$ HS1
      iframe Hoth HT0 HT1 Hg Ho H0 H1 H2 H3
      iexists _; iexact H4

theorem body_obligation3 (c : Dev nD) : BodyObligation (dat3 (F := F) V c) (defs₀ (F := F)) Variants.none () Set.univ := fun t => by
  rw [bigSep_W3, bigSep_W3]
  exact sound_body3 V c t

theorem hin3 (c : Dev nD) : Pipeline.ΦA spec3 c ⊢ (dat3 V c).Φ 0 := .of_eq rfl

theorem hout3 (c : Dev nD) : (dat3 V c).Φ (Fin.last cfg3.N) ⊢ Pipeline.ΦA spec3 c := by
  rw [show (dat3 V c).Φ (Fin.last cfg3.N) = PhiS3 V c cfg3.N (Nat.le_refl _) from rfl, PhiS3_pos V c _ _ (by have : cfg3.N = 10 := N_3; omega), PhiA3_eq]
  unfold Phi3At
  iintro ⟨⟨⟨HS0, HS1⟩, Ho⟩, Hg⟩
  iframe Ho Hg
  isplitl [HS0]; · iexists _; iexact HS0
  iexists _; iexact HS1

end Cert.Kernel.Hand

end
-- ==== Proof.K.Run.lean ====
import proofs.«431499_j78546361909690_1_alg».proof.Proof.K.RunCond
import proofs.«431499_j78546361909690_1_alg».proof.Proof.K.Lin0
import proofs.«431499_j78546361909690_1_alg».proof.Proof.K.Lin1
import proofs.«431499_j78546361909690_1_alg».proof.Proof.K.Lin2
import proofs.«431499_j78546361909690_1_alg».proof.Proof.K.Readout

noncomputable section

namespace Cert.Kernel.Hand

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev E3 : (c : Dev nD) → (b : Ref sig .tc) → Buf (Elt F) ((c : Thread nD τ).loc b) := fun c b => V3 m c b
def o4 (c : Dev nD) : Buf (Elt F) ((c : Thread nD τ).loc main_v39) := (dat0 (E3 m) c).arrAt 3 cfg0.N
abbrev U4 (c : Dev nD) : Valuation τ sig (Elt F) := Function.update (V3 m c) main_v39 (o4 m c)
abbrev U5 (c : Dev nD) : Valuation τ sig (Elt F) := StableHlo.after hostOps1 (U4 m c)
abbrev E5 : (c : Dev nD) → (b : Ref sig .tc) → Buf (Elt F) ((c : Thread nD τ).loc b) := fun c b => U5 m c b
def o6 (c : Dev nD) : Buf (Elt F) ((c : Thread nD τ).loc main_v69) := (dat1 (E5 m) c).arrAt 3 cfg1.N
abbrev U6 (c : Dev nD) : Valuation τ sig (Elt F) := Function.update (U5 m c) main_v69 (o6 m c)
abbrev U7 (c : Dev nD) : Valuation τ sig (Elt F) := StableHlo.after hostOps2 (U6 m c)
abbrev E7 : (c : Dev nD) → (b : Ref sig .tc) → Buf (Elt F) ((c : Thread nD τ).loc b) := fun c b => U7 m c b
def o8 (c : Dev nD) : Buf (Elt F) ((c : Thread nD τ).loc main_v99) := (dat2 (E7 m) c).arrAt 3 cfg2.N
abbrev U8 (c : Dev nD) : Valuation τ sig (Elt F) := Function.update (U7 m c) main_v99 (o8 m c)
abbrev U9 (c : Dev nD) : Valuation τ sig (Elt F) := StableHlo.after hostOps3 (U8 m c)
abbrev E9 : (c : Dev nD) → (b : Ref sig .tc) → Buf (Elt F) ((c : Thread nD τ).loc b) := fun c b => U9 m c b
def o10 (c : Dev nD) : Buf (Elt F) ((c : Thread nD τ).loc main_v101) := (dat3 (E9 m) c).arrAt 4 cfg3.N
abbrev U10 (c : Dev nD) : Valuation τ sig (Elt F) := Function.update (U9 m c) main_v101 (o10 m c)

def outs : Outs (F := F) := fun j r c =>
  match j with
  | 4 => U4 m c r
  | 6 => U6 m c r
  | 8 => U8 m c r
  | _ => U10 m c r

/-- Writing back what an updated function already holds at `a` gives that function. -/
private theorem update_update_self {α : Type*} [DecidableEq α] {β : α → Type*} {f g : (a : α) → β a} (h : f = g) (a : α) (v : β a) :
    Function.update f a (Function.update g a v a) = Function.update g a v := by rw [h, Function.update_self]

theorem V4_eq (c : Dev nD) : V4 m (outs m) c = U4 m c := update_update_self rfl _ _
theorem V5_eq (c : Dev nD) : V5 m (outs m) c = U5 m c := congrArg (StableHlo.after hostOps1) (V4_eq m c)
theorem V6_eq (c : Dev nD) : V6 m (outs m) c = U6 m c := update_update_self (V5_eq m c) _ _
theorem V7_eq (c : Dev nD) : V7 m (outs m) c = U7 m c := congrArg (StableHlo.after hostOps2) (V6_eq m c)
theorem V8_eq (c : Dev nD) : V8 m (outs m) c = U8 m c := update_update_self (V7_eq m c) _ _
theorem V9_eq (c : Dev nD) : V9 m (outs m) c = U9 m c := congrArg (StableHlo.after hostOps3) (V8_eq m c)
theorem V10_eq (c : Dev nD) : V10 m (outs m) c = U10 m c := update_update_self (V9_eq m c) _ _

def pdats : (p : Fin 4) → (c : Dev nD) → Dat τ (Elt F) Unit ℕ (UR sig nD τ) ℕ (cfgs p) c
  | ⟨0, _⟩ => fun c => dat0 (E3 m) c
  | ⟨1, _⟩ => fun c => dat1 (E5 m) c
  | ⟨2, _⟩ => fun c => dat2 (E7 m) c
  | ⟨3, _⟩ => fun c => dat3 (E9 m) c

abbrev 𝒱₀ : Variants := Variants.none
abbrev L : GSem nD τ sig → Finset Unit := fun _ => ∅
abbrev lv : GSem nD τ sig → Unit → ℕ := fun _ _ => 0
abbrev R (c : Dev nD) : sProp 𝕄 := iprop((∃ r, prngReg c r) ∗ ∃ W, owes (c : Thread nD τ) (0 : CellTallies nD τ sig Unit) W)

/-- What core `c` holds between two items of the program: the program's arrays at `V`, and nothing owed. -/
private abbrev St (V : Valuation τ sig (Elt F)) (c : Dev nD) : sProp 𝕄 := iprop(StableHlo.held (c : Thread nD τ) (Pipeline.ucRefs τ sig) V ∗ R c)

/-- Equal contents give the same thread state. -/
private theorem link {V V' : Valuation τ sig (Elt F)} (h : V = V') (c : Dev nD) : St V c ⊢ St V' c := h ▸ .rfl

section Region

variable {p : Fin 4} (lw : Pipeline.LaunchFacts (nD := nD) (τ := τ) cfgs p) (Vi Vo : Dev nD → Valuation τ sig (Elt F))
  (hb : ∀ c, BodyObligation (pdats m p c) (defs₀ (F := F)) 𝒱₀ () Set.univ)
  (hq : ∀ c w, (pdats m p c).q w = fullShare) (hz : ∀ c t, (pdats m p c).owed t = 0) (hr : ∀ c x, x ∈ (pdats m p c).recorded 0)
  (hA : ∀ c w, (pdats m p c).A w = Vi c (Pipeline.arrRef (cfgs p).spec w))
  (wo : Fin (cfgs p).W)
  (hio : ∀ w, w ≠ wo → ((cfgs p).win w).isOut = false ∧ Pipeline.arrRef (cfgs p).spec w ≠ Pipeline.arrRef (cfgs p).spec wo)
  (hVo : ∀ c, Vo c = Function.update (Vi c) (Pipeline.arrRef (cfgs p).spec wo) ((pdats m p c).arrAt wo (cfgs p).N))
  (hi : ∀ c, Pipeline.ΦA (cfgs p).spec c ⊢ (pdats m p c).Φ 0)
  (he : ∀ c, (pdats m p c).Φ (Fin.last _) ⊢ Pipeline.ΦA (cfgs p).spec c)

include hA hio hVo in
/-- Only window `wo` is an output, so the arrays end at `Vi` updated at `wo`'s array. -/
private theorem arrAt_last (c : Dev nD) (w : Fin (cfgs p).W) :
    (pdats m p c).arrAt w (cfgs p).N = Vo c (Pipeline.arrRef (cfgs p).spec w) := by
  rw [hVo]
  by_cases h : w = wo
  · subst h; exact (Function.update_self (f := Vi c) _ _).symm
  · exact (((pdats m p c).arrAt_in w (hio w h).1 _).trans (hA c w)).trans
      (Function.update_of_ne (StableHlo.devRef_ne_of_ne (hio w h).2) _ _).symm

include hVo in
private theorem rest_last (c : Dev nD) (b : Ref sig .tc) (hb : b ∉ Finset.univ.image (Pipeline.arrRef (cfgs p).spec)) : Vo c b = Vi c b := by
  rw [hVo]
  exact Function.update_of_ne (StableHlo.devRef_ne_of_ne fun e => hb (Finset.mem_image.mpr ⟨wo, Finset.mem_univ _, e.symm⟩)) _ _

set_option backward.isDefEq.respectTransparency.types false in
/-- A region as a segment of the run: entered with the buffers at `Vi`, left with them at `Vo`. -/
private def reg : Pipeline.RegionSeg (pcfgs (F := F)) adm (pdats m) () defs₀ 𝒱₀ L lv p where
  win := lw.win.to₀
  block_pos := lw.block_pos
  stage_whole := lw.stage_whole
  K := PEmpty
  osem k := k.elim
  ho := Pipeline.OwnSemFacts.none _
  hbody c := (hb c).loose
  hwaits := Pipeline.hwaits_of_owed_zero _ _ _ _ L lv p hz
  pre c := St (Vi c) c
  post c := St (Vo c) c
  X c := iprop(∃ r, prngReg c r)
  Y c := iprop(∃ r, prngReg c r)
  Z c := Pipeline.unscopedRest (Ix := Unit) (Name := ℕ) (U := UR sig nD τ) (Lvl := ℕ) (cfgs p).spec c fun b => Vi c b
  hentry c := by
    rw [Pipeline.ownSems0_none]
    have hsplit := Pipeline.arrays_of_unscopedBufs (p := p) (pcfgs (F := F)) adm (pdats m) lw.win lw.arr_whole c
      ((pdats m p c).share_full (hq c)) (fun b => Vi c b) (hA c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin; rw [hz]
      icases HO with ⟨%W, HO⟩; iexists W; isplitr; · ipureintro; exact fun _ _ => Or.inl (hr c _)
      iexact HO
    isplitl [Hp]; · iexact Hp
    iexact Hrest
  hin c := by
    refine BIBase.Entails.trans ?_ (hi c)
    unfold Pipeline.ΦA
    iintro ⟨Hp, -, Hr⟩
    iframe
  hout c := by
    rw [Pipeline.ownSems0_none]
    refine BIBase.Entails.trans (he c) ?_
    unfold Pipeline.ΦA
    iintro ⟨Hr, Hp⟩
    iframe; iempintro
  hexit c := by
    have hjoin := Pipeline.unscopedBufs_of_arrays (p := p) (pcfgs (F := F)) adm (Ix := Unit) (Name := ℕ) (U := UR sig nD τ) (Lvl := ℕ)
      lw.win lw.arr_whole c (pdats m) ((pdats m p c).share_full (hq c))
      (fun b => Vi c b) (fun b => Vo c b) ((pdats m p c).arrAt · (cfgs p).N) (arrAt_last m Vi Vo hA wo hio hVo c) (rest_last m Vi Vo wo hVo c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin; rw [hz]
    icases HO with ⟨%W, -, HO⟩; iexists W; iexact HO

end Region

def reg0 := reg m launch0 (V3 m) (U4 m) (body_obligation0 (E3 m)) (fun _ _ => rfl) (fun _ _ => rfl) (fun _ _ => trivial) (A_eq0 (E3 m)) 3 (by decide) (fun _ => rfl) (fun _ => .rfl) (fun _ => .rfl)
def reg1 := reg m launch1 (U5 m) (U6 m) (body_obligation1 (E5 m)) (fun _ _ => rfl) (fun _ _ => rfl) (fun _ _ => trivial) (A_eq1 (E5 m)) 3 (by decide) (fun _ => rfl) (fun _ => .rfl) (fun _ => .rfl)
def reg2 := reg m launch2 (U7 m) (U8 m) (body_obligation2 (E7 m)) (fun _ _ => rfl) (fun _ _ => rfl) (fun _ _ => trivial) (A_eq2 (E7 m)) 3 (by decide) (fun _ => rfl) (fun _ => .rfl) (fun _ => .rfl)
def reg3 := reg m launch3 (U9 m) (U10 m) (body_obligation3 (E9 m)) (fun _ _ => rfl) (fun _ _ => rfl) (fun _ _ => trivial) (A_eq3 (E9 m)) 4 (by decide) (fun _ => rfl) (hin3 (E9 m)) (hout3 (E9 m))

private abbrev u₀ := initOf (Pipeline.cells cfgs cellOf_inj) (Pipeline.launchToks cfgs cellOf_inj)

set_option backward.isDefEq.respectTransparency.types false in
theorem run : θ_run defs (onTc (τ := τ) (main (F := F))) ⟨m, fun _ => 0, ρ⟩ fun r => ∀ c : Dev nD, Post m c (o10 m c) r.2 := by
  refine (θ_run defs _ _).mono (fun r h c => ⟨(h c).1.trans ?hres, (h c).2⟩)
    (run_cond m emb₁ () 𝒱₀ L lv (fun _ _ => rfl) ρ (outs m) (pdats m) 0 (fun _ => iprop(emp)) u₀ ?hu (fun _ c => R c) ?hE0
      (reg0 m) (reg1 m) (reg2 m) (reg3 m) fun c => ⟨.rfl, .rfl, .rfl, .rfl, link (V4_eq m c).symm c, link (V5_eq m c) c,
        link (V6_eq m c).symm c, link (V7_eq m c) c, link (V8_eq m c).symm c, link (V9_eq m c) c,
        (link (V10_eq m c).symm c).trans (sep_mono .rfl ?hE4)⟩)
  case hres => rw [V10_eq]; exact Function.update_self (f := U9 m c) _ _
  case hu =>
    iintro Hu; imodintro
    isplitl [Hu]
    · iapply (show (ownU u₀ : sProp 𝕄) ⊢ BI.own (emb₁ u₀) from .rfl)
      iexact Hu
    iapply (show (BI.emp : sProp 𝕄) ⊢ bigSep Finset.univ (fun _ : Dev nD => (BI.emp : sProp 𝕄)) from by rw [BI.bigSep_emp_const])
    iempintro
  case hE0 =>
    refine Pipeline.initEach L lv fun c => ?_
    iintro ⟨⟨-, HO, -, Hp, -⟩, -⟩
    imodintro
    isplitl [Hp]; · iexists _; iexact Hp
    iexists ∅; iexact HO
  case hE4 =>
    iintro ⟨-, HO⟩
    iexact HO

end Cert.Kernel.Hand

end
-- ==== Proof.KI.RunCond.lean ====
import proofs.«431499_j78546361909690_1_alg».proof.Proof.Gen.KernelIdeal.Regions

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F]

variable (m : (ℓ : Loc nD τ sig) → Buf (Elt F) ℓ)

/-- Memory `s` holds `v` in core `c`'s result array and each of its arguments as launched in `m`. -/
abbrev Post (c : Dev nD) (v : Buf (Elt F) ((c.tc : Thread nD τ).loc main_v101)) (s : MemSt nD τ sig (Elt F)) : Prop :=
  let K (r : Ref sig .tc) := s.mem ((c.tc : Thread nD τ).loc r) = m ((c.tc : Thread nD τ).loc r)
  s.mem ((c.tc : Thread nD τ).loc main_v101) = v ∧ K main_arg0 ∧ K main_arg1 ∧ K main_arg2 ∧ K main_arg3 ∧ K main_arg4 ∧ K main_arg5
    ∧ K main_arg6 ∧ K main_arg7 ∧ K main_arg8 ∧ K main_arg9 ∧ K main_arg10 ∧ K main_arg11

set_option backward.isDefEq.respectTransparency.types false in
/-- The run over the ten segments, given a record per region and the chain of their thread states, with the result array named. -/
theorem run_cond {Ix : Type} [DecidableEq Ix] {U : Type} [URA U] {Lvl : Type} [Preorder Lvl]
    (EP : Emb (URounds (GSem nD τ sig) Unit) (MT nD τ sig Ix (Elt F) ℕ U Lvl)) [EP.LandsIn (upEmb : UEmb _ (MT nD τ sig Ix (Elt F) ℕ U Lvl))]
    (ι : Ix) (𝒱₀ : Variants) (L : GSem nD τ sig → Finset Ix) (lv : GSem nD τ sig → Ix → Lvl) (hL : ∀ g : GSem nD τ sig, g.1.2 ≠ .tc → L g = ∅)
    (ρ : Dev nD → PrngReg) (outs : Outs (F := F))
    (pdats : (p : Fin 4) → (c : Dev nD) → Dat τ (Elt F) Ix ℕ U Lvl (cfgs p) c)
    (O₀ : Dev nD → CellTallies nD τ sig Ix) (G : Dev nD → sProp (MT nD τ sig Ix (Elt F) ℕ U Lvl)) (u₀ : U)
    (hu₀ : (ownU u₀ : sProp (MT nD τ sig Ix (Elt F) ℕ U Lvl)) ⊢ |={Set.univ}=> iprop(BI.own (EP (initOf (Pipeline.cells cfgs cellOf_inj) (Pipeline.launchToks cfgs cellOf_inj))) ∗ bigSep Finset.univ G))
    (E : Fin 5 → Dev nD → sProp (MT nD τ sig Ix (Elt F) ℕ U Lvl))
    (hE0 : iprop((bigSep Finset.univ fun c : Dev nD => iprop(unscopedSems0 c ∗ owes (c : Thread nD τ) (O₀ c) ∅ ∗ Pipeline.launchCred O₀ c ∗ prngReg c (ρ c) ∗ G c)) ∗ levAts L lv)
      ⊢ (|={Set.univ}=> bigSep Finset.univ (E 0) : sProp (MT nD τ sig Ix (Elt F) ℕ U Lvl)))
    (R0 : RegionSeg (pcfgs (F := F)) adm pdats ι defs₀ 𝒱₀ L lv 0)
    (R1 : RegionSeg (pcfgs (F := F)) adm pdats ι defs₀ 𝒱₀ L lv 1)
    (R2 : RegionSeg (pcfgs (F := F)) adm pdats ι defs₀ 𝒱₀ L lv 2)
    (R3 : RegionSeg (pcfgs (F := F)) adm pdats ι defs₀ 𝒱₀ L lv 3)
    (hch : ∀ c, Seg.ChainsAt c (fun c => iprop(StableHlo.held (c : Thread nD τ) (Pipeline.ucRefs τ sig) (V0 m c) ∗ E 0 c)) (segs m outs 𝒱₀ L lv E ι pdats R0 R1 R2 R3 c)
      fun c => iprop(StableHlo.held (c : Thread nD τ) (Pipeline.ucRefs τ sig) (V10 m outs c) ∗ ∃ W, owes (c : Thread nD τ) (0 : CellTallies nD τ sig Ix) W)) :
    θ_run defs (onTc (τ := τ) (main (F := F))) ⟨m, fun _ => 0, ρ⟩ fun r => ∀ c : Dev nD, Post m c (V10 m outs c main_v101) r.2 := by
  refine Pipeline.θ_run_regions_kit_dev (pcfgs (F := F)) adm pdats ι cellOf_inj EP defs₀ 𝒱₀ L lv m ρ main
    (segs m outs 𝒱₀ L lv E ι pdats R0 R1 R2 R3)
    (fun c Q => by
      rewrite [main_chain c, Seg.run_eq_chain,
        show (segs m outs 𝒱₀ L lv E ι pdats R0 R1 R2 R3 c).map Seg.prog = [
          StableHlo.seq hostOps0,
          StableHlo.seq hostOps0_1,
          StableHlo.seq hostOps0_2,
          Prog.lift (.customCall (Pipeline.entry 0) ()),
          StableHlo.seq hostOps1,
          Prog.lift (.customCall (Pipeline.entry 1) ()),
          StableHlo.seq hostOps2,
          Prog.lift (.customCall (Pipeline.entry 2) ()),
          StableHlo.seq hostOps3,
          Prog.lift (.customCall (Pipeline.entry 3) ()) ] from rfl]
      exact .rfl)
    (fun c => by simp only [segs, Seg.pipes_host, Seg.pipes_region, Seg.pipes_nil]; decide) O₀ hL G u₀ hu₀
    (T₀ := fun c => iprop(unscopedBufs c (fun b => m ((c.tc : Thread nD τ).loc b)) ∗ E 0 c))
    (Tₙ := fun c => StableHlo.held (c : Thread nD τ) (Pipeline.ucRefs τ sig) (V10 m outs c))
    (hch := fun c => ⟨(sep_mono (.of_eq (Pipeline.unscopedBufs_held c (V0 m c))) .rfl).trans (hch c).1, (hch c).2⟩)
    (hinit := ?_) (QY := fun c => Post m c (V10 m outs c main_v101))
    (hfin := fun c s' => ?_) (hQ := fun _ h => h)
  · rw [bigSep_sep']
    iintro ⟨⟨Hh, Hr⟩, Hla⟩
    imod hE0 $$ [Hr Hla] with HE
    · isplitl [Hr] <;> iassumption
    imodintro
    rw [bigSep_sep']
    isplitl [Hh] <;> iassumption
  · unfold StableHlo.held
    refine (pointsTo_read_all (Pipeline.ucRefs τ sig) (fun b => ((c : Thread nD τ).1, b)) (V10 m outs c) s').trans ?_
    iintro ⟨%h, HSI⟩
    imodintro
    isplitr
    · ipureintro
      have hk (r : Ref sig .tc) (hr : ¬(Proc.devRef .tc r : DevRef τ sig).isScoped) := h _ (Finset.mem_filter.mpr ⟨StableHlo.devRef_mem_tcRefs r, hr⟩)
      exact ⟨hk _ (by decide),
        (hk _ (by decide)).trans (V10_main_arg0 m outs c),
        (hk _ (by decide)).trans (V10_main_arg1 m outs c),
        (hk _ (by decide)).trans (V10_main_arg2 m outs c),
        (hk _ (by decide)).trans (V10_main_arg3 m outs c),
        (hk _ (by decide)).trans (V10_main_arg4 m outs c),
        (hk _ (by decide)).trans (V10_main_arg5 m outs c),
        (hk _ (by decide)).trans (V10_main_arg6 m outs c),
        (hk _ (by decide)).trans (V10_main_arg7 m outs c),
        (hk _ (by decide)).trans (V10_main_arg8 m outs c),
        (hk _ (by decide)).trans (V10_main_arg9 m outs c),
        (hk _ (by decide)).trans (V10_main_arg10 m outs c),
        (hk _ (by decide)).trans (V10_main_arg11 m outs c)⟩
    · iexact HSI

end Cert.KernelIdeal.Hand

end
-- ==== Proof.KI.Lin0.lean ====
import proofs.«431499_j78546361909690_1_alg».proof.Proof.Gen.KernelIdeal.Launch
import proofs.«431499_j78546361909690_1_alg».proof.Proof.Gen.KernelIdeal.Skeleton
import proofs.«431499_j78546361909690_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.ProofMode Idealize.SL.Sem
open Idealize.ShloMosaic.Pipeline (Dat BodyObligation)

variable {F : FTy → Type} [FloatOps F]

local notation "𝕄" => MT nD τ sig Unit (Elt F) ℕ (UR sig nD τ) ℕ

abbrev r0_in0 : Rect S5000x384 := Rect.unit (s := S5000x384) ![0, 0] S5000x384.size inb_S5000x384_S5000x384_0_0
abbrev r0_in1 : Rect S384x128 := Rect.unit (s := S384x128) ![0, 0] S384x128.size inb_S384x128_S384x128_0_0
abbrev r0_in2 : Rect S128 := Rect.unit (s := S128) ![0] S128.size inb_S128_S128_0
abbrev r0_out : Rect S5000x128 := Rect.unit (s := S5000x128) ![0, 0] S5000x128.size inb_S5000x128_S5000x128_0_0

-- The content the body's one store leaves in the output block: max(x0 · x1 + x2, 0), x0 and x1 cast to bf16 first.
def out0_3 (x0 : Vec F S5000x384 .f32) (x1 : Vec F S384x128 .f32) (x2 : Vec F S128 .f32) : Vec F S5000x128 .f32 :=
  View.canon [⟨r0_out, k0_pay1 (View.ld x0 r0_in0) (View.ld x1 r0_in1) (View.ld x2 r0_in2)⟩]

-- The body's triple in the shape of a body obligation, so that each region's obligation is one application of it.
theorem sound_kernel0 (c : Dev nD) (i : grid0.Coords)
    (arg1 : Memref sig .tc .vmem S5000x384 .f32) (harg1 : arg1.IsWhole) (arg2 : Memref sig .tc .vmem S384x128 .f32) (harg2 : arg2.IsWhole)
    (arg3 : Memref sig .tc .vmem S128 .f32) (harg3 : arg3.IsWhole) (arg4 : Memref sig .tc .vmem S5000x128 .f32) (harg4 : arg4.IsWhole)
    {D0 D1 D2 D3 : Type} {b0 : D0 → Vec F S5000x384 .f32} {b1 : D1 → Vec F S384x128 .f32} {b2 : D2 → Vec F S128 .f32}
    {b3 : D3 → Vec F S5000x128 .f32} {x0 x1 x2 y3} (h0 : ∀ d, b0 d = x0) (h1 : ∀ d, b1 d = x1) (h2 : ∀ d, b2 d = x2)
    (h3 : y3 = out0_3 x0 x1 x2) (P O : sProp 𝕄) :
    iprop(P ∗ O ∗ (∃ d, owns c.tc arg1 fullShare (b0 d)) ∗ (∃ d, owns c.tc arg2 fullShare (b1 d))
        ∗ (∃ d, owns c.tc arg3 fullShare (b2 d)) ∗ (∃ d, owns c.tc arg4 fullShare (b3 d)))
      ⊢ wp frame (wpE defs₀ Variants.none c none) Set.univ (cc0__linear_relu_kernel i arg1 harg1 arg2 harg2 arg3 harg3 arg4 harg4)
          fun _ => iprop(P ∗ O ∗ owns c.tc arg1 fullShare x0 ∗ owns c.tc arg2 fullShare x1
            ∗ owns c.tc arg3 fullShare x2 ∗ owns c.tc arg4 fullShare y3) := by
  subst h3
  simp only [cc0__linear_relu_kernel_eq_skeleton, h0, h1, h2]; unfold cc0__linear_relu_kernel_skel
  unfold owns
  iintro ⟨HP, HO, ⟨%d0, %f0, %hf0, H0⟩, ⟨%d1, %f1, %hf1, H1⟩, ⟨%d2, %f2, %hf2, H2⟩, ⟨%d3, %f3, -, H3⟩⟩
  subst hf0 hf1 hf2
  sl_exec
  sl_step
  isplitl [HP]; · iexact HP
  isplitl [HO]; · iexact HO
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (View.cover_of_tiled [⟨r0_out, _⟩] S5000x128.size (by rfl))

variable (V : (c : Dev nD) → (b : Ref sig .tc) → Buf (Elt F) ((c : Thread nD τ).loc b))

-- The block of window w at grid point t, read from the window's array in V.
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

-- The region's proof data at entry contents V: after the body each input holds its block, the output out0_3 of the three.
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

theorem after0_3 (c : Dev nD) (t : Fin cfg0.N) :
    (dat0 V c).after 3 t = out0_3 (iblk0 V c 0 t) (iblk0 V c 1 t) (iblk0 V c 2 t) := by dsimp only [dat0]
theorem A_eq0 (c : Dev nD) (w : Fin cfg0.W) : (dat0 V c).A w = V c (Pipeline.arrRef spec0 w) := rfl

-- The body writes no input, so what an input holds before the body is the block it holds after it.
theorem before0_0 (c : Dev nD) (t : Fin cfg0.N) (d) : (dat0 V c).before 0 t d = iblk0 V c 0 t :=
  (dat0 V c).before_in_eq_fetched 0 rfl (fun _ => rfl) (fun _ _ _ => rfl) (fun _ => rfl) t d
theorem before0_1 (c : Dev nD) (t : Fin cfg0.N) (d) : (dat0 V c).before 1 t d = iblk0 V c 1 t :=
  (dat0 V c).before_in_eq_fetched 1 rfl (fun _ => rfl) (fun _ _ _ => rfl) (fun _ => rfl) t d
theorem before0_2 (c : Dev nD) (t : Fin cfg0.N) (d) : (dat0 V c).before 2 t d = iblk0 V c 2 t :=
  (dat0 V c).before_in_eq_fetched 2 rfl (fun _ => rfl) (fun _ _ _ => rfl) (fun _ => rfl) t d

theorem body_obligation0 (c : Dev nD) : BodyObligation (dat0 (F := F) V c) (defs₀ (F := F)) Variants.none () Set.univ := fun t => by
  rw [bigSep_W0, bigSep_W0]
  exact sound_kernel0 c (grid0.coords t) _ (stage_whole0 0 _) _ (stage_whole0 1 _) _ (stage_whole0 2 _) _ (stage_whole0 3 _)
    (before0_0 V c t) (before0_1 V c t) (before0_2 V c t) (after0_3 V c t) _ _

end Cert.KernelIdeal.Hand
-- ==== Proof.KI.Lin1.lean ====
import proofs.«431499_j78546361909690_1_alg».proof.Proof.KI.Lin0

noncomputable section

namespace Cert.KernelIdeal.Hand

open Cert.KernelIdeal Cert.KernelIdeal.Gen Idealize.ShloMosaic Idealize.ShloMosaic.TcCoe Idealize.SL Idealize.SL.RA Idealize.SL.Sem
open Idealize.ShloMosaic.Pipeline (Dat BodyObligation)

variable {F : FTy → Type} [FloatOps F]

abbrev out1_3 (x0 : Vec F S5000x384 .f32) (x1 : Vec F S384x128 .f32) (x2 : Vec F S128 .f32) : Vec F S5000x128 .f32 := out0_3 x0 x1 x2

variable (V : (c : Dev nD) → (b : Ref sig .tc) → Buf (Elt F) ((c : Thread nD τ).loc b))

-- The block of window w at grid point t, read from the window's array in V.
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

-- The region's proof data at entry contents V: after the body each input holds its block, the output out0_3 of the three.
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
  Φ _ := Pipeline.ΦA spec1 c
  q _ := fullShare
  owed _ := 0

theorem after1_3 (c : Dev nD) (t : Fin cfg1.N) :
    (dat1 V c).after 3 t = out1_3 (iblk1 V c 0 t) (iblk1 V c 1 t) (iblk1 V c 2 t) := by dsimp only [dat1]
theorem A_eq1 (c : Dev nD) (w : Fin cfg1.W) : (dat1 V c).A w = V c (Pipeline.arrRef spec1 w) := rfl

-- The body writes no input, so what an input holds before the body is the block it holds after it.
theorem before1_0 (c : Dev nD) (t : Fin cfg1.N) (d) : (dat1 V c).before 0 t d = iblk1 V c 0 t :=
  (dat1 V c).before_in_eq_fetched 0 rfl (fun _ => rfl) (fun _ _ _ => rfl) (fun _ => rfl) t d
theorem before1_1 (c : Dev nD) (t : Fin cfg1.N) (d) : (dat1 V c).before 1 t d = iblk1 V c 1 t :=
  (dat1 V c).before_in_eq_fetched 1 rfl (fun _ => rfl) (fun _ _ _ => rfl) (fun _ => rfl) t d
theorem before1_2 (c : Dev nD) (t : Fin cfg1.N) (d) : (dat1 V c).before 2 t d = iblk1 V c 2 t :=
  (dat1 V c).before_in_eq_fetched 2 rfl (fun _ => rfl) (fun _ _ _ => rfl) (fun _ => rfl) t d

theorem body_obligation1 (c : Dev nD) : BodyObligation (dat1 (F := F) V c) (defs₀ (F := F)) Variants.none () Set.univ := fun t => by
  rw [bigSep_W0, bigSep_W0]
  exact sound_kernel0 c (grid1.coords t) _ (stage_whole1 0 _) _ (stage_whole1 1 _) _ (stage_whole1 2 _) _ (stage_whole1 3 _)
    (before1_0 V c t) (before1_1 V c t) (before1_2 V c t) (after1_3 V c t) _ _

end Cert.KernelIdeal.Hand
-- ==== Proof.KI.Lin2.lean ====
import proofs.«431499_j78546361909690_1_alg».proof.Proof.KI.Lin0

noncomputable section

namespace Cert.KernelIdeal.Hand

open Cert.KernelIdeal Cert.KernelIdeal.Gen Idealize.ShloMosaic Idealize.ShloMosaic.TcCoe Idealize.SL Idealize.SL.RA Idealize.SL.Sem
open Idealize.ShloMosaic.Pipeline (Dat BodyObligation)

variable {F : FTy → Type} [FloatOps F]

abbrev out2_3 (x0 : Vec F S5000x384 .f32) (x1 : Vec F S384x128 .f32) (x2 : Vec F S128 .f32) : Vec F S5000x128 .f32 := out0_3 x0 x1 x2

variable (V : (c : Dev nD) → (b : Ref sig .tc) → Buf (Elt F) ((c : Thread nD τ).loc b))

-- The block of window w at grid point t, read from the window's array in V.
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

-- The region's proof data at entry contents V: after the body each input holds its block, the output out0_3 of the three.
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => out2_3 (iblk2 V c 0 t) (iblk2 V c 1 t) (iblk2 V c 2 t)
  Φ _ := Pipeline.ΦA spec2 c
  q _ := fullShare
  owed _ := 0

theorem after2_3 (c : Dev nD) (t : Fin cfg2.N) :
    (dat2 V c).after 3 t = out2_3 (iblk2 V c 0 t) (iblk2 V c 1 t) (iblk2 V c 2 t) := by dsimp only [dat2]
theorem A_eq2 (c : Dev nD) (w : Fin cfg2.W) : (dat2 V c).A w = V c (Pipeline.arrRef spec2 w) := rfl

-- The body writes no input, so what an input holds before the body is the block it holds after it.
theorem before2_0 (c : Dev nD) (t : Fin cfg2.N) (d) : (dat2 V c).before 0 t d = iblk2 V c 0 t :=
  (dat2 V c).before_in_eq_fetched 0 rfl (fun _ => rfl) (fun _ _ _ => rfl) (fun _ => rfl) t d
theorem before2_1 (c : Dev nD) (t : Fin cfg2.N) (d) : (dat2 V c).before 1 t d = iblk2 V c 1 t :=
  (dat2 V c).before_in_eq_fetched 1 rfl (fun _ => rfl) (fun _ _ _ => rfl) (fun _ => rfl) t d
theorem before2_2 (c : Dev nD) (t : Fin cfg2.N) (d) : (dat2 V c).before 2 t d = iblk2 V c 2 t :=
  (dat2 V c).before_in_eq_fetched 2 rfl (fun _ => rfl) (fun _ _ _ => rfl) (fun _ => rfl) t d

theorem body_obligation2 (c : Dev nD) : BodyObligation (dat2 (F := F) V c) (defs₀ (F := F)) Variants.none () Set.univ := fun t => by
  rw [bigSep_W0, bigSep_W0]
  exact sound_kernel0 c (grid2.coords t) _ (stage_whole2 0 _) _ (stage_whole2 1 _) _ (stage_whole2 2 _) _ (stage_whole2 3 _)
    (before2_0 V c t) (before2_1 V c t) (before2_2 V c t) (after2_3 V c t) _ _

end Cert.KernelIdeal.Hand
-- ==== Proof.KI.Readout.lean ====
import proofs.«431499_j78546361909690_1_alg».proof.Proof.Gen.KernelIdeal.Launch
import proofs.«431499_j78546361909690_1_alg».proof.Proof.Gen.KernelIdeal.Skeleton
import proofs.«431499_j78546361909690_1_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The block of array `w` that grid point `t` reads, at the contents `V` gives the arrays. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

abbrev cond3_0 (i : grid3.Coords) : Prop := (Scalar.cmpi .ne (Scalar.extui (Scalar.cmpi .eq (BitVec.ofNat 32 (i 0).val) 0#32)) 0#32) = 1#1
theorem hcond3_0 : ∀ t : Fin cfg3.N, cond3_0 (grid3.coords t) ↔ t.val = 0 := by decide +kernel
abbrev cond3_1 (i : grid3.Coords) : Prop := k3_cond2 i = 1#1
theorem hcond3_1 : ∀ t : Fin cfg3.N, cond3_1 (grid3.coords t) ↔ t.val = 9 := by decide +kernel

theorem idle3_4 : ∀ t : Fin cfg3.N, t.val ≠ 9 → cfg3.idle 4 (grid3.coords t) = true ∧ (cfg3.win 4).flush t = false := by decide +kernel
theorem live3_4 : ∀ t : Fin cfg3.N, t.val = 9 → cfg3.idle 4 (grid3.coords t) = false := by decide +kernel

abbrev VO3_4 : View sig .tc .vmem S128x10 .f32 := (Memref.whole cc3_stg4_0 : Memref sig .tc .vmem S128x10 .f32).view
abbrev ms3_0 (t : Fin cfg3.N) : Memref sig .tc .vmem S5000x128 .f32 := win3_0.stage (cfg3.slots t 0)
abbrev hs3_0 (t : Fin cfg3.N) : (ms3_0 t).IsWhole := hstage3_0 ((cfg3.slots t 0).cast nbuf3_0)
abbrev ms3_1 (t : Fin cfg3.N) : Memref sig .tc .vmem S5000x1 .i32 := win3_1.stage (cfg3.slots t 1)
abbrev hs3_1 (t : Fin cfg3.N) : (ms3_1 t).IsWhole := hstage3_1 ((cfg3.slots t 1).cast nbuf3_1)
abbrev ms3_2 (t : Fin cfg3.N) : Memref sig .tc .vmem S128x10 .f32 := win3_2.stage (cfg3.slots t 2)
abbrev hs3_2 (t : Fin cfg3.N) : (ms3_2 t).IsWhole := hstage3_2 ((cfg3.slots t 2).cast nbuf3_2)
abbrev ms3_3 (t : Fin cfg3.N) : Memref sig .tc .vmem S10 .f32 := win3_3.stage (cfg3.slots t 3)
abbrev hs3_3 (t : Fin cfg3.N) : (ms3_3 t).IsWhole := hstage3_3 ((cfg3.slots t 3).cast nbuf3_3)
abbrev ms3_4 (t : Fin cfg3.N) : Memref sig .tc .vmem S128x10 .f32 := win3_4.stage (cfg3.slots t 4)
abbrev hs3_4 (t : Fin cfg3.N) : (ms3_4 t).IsWhole := hstage3_4 ((cfg3.slots t 4).cast nbuf3_4)
abbrev scM3_0 : Memref sig .tc .vmem S128x128 .f32 := Memref.whole cc3_scratch0
abbrev scM3_1 : Memref sig .tc .vmem S128x1 .f32 := Memref.whole cc3_scratch1
abbrev VS3_0 : View sig .tc .vmem S128x128 .f32 := scM3_0.view
abbrev VS3_1 : View sig .tc .vmem S128x1 .f32 := scM3_1.view

/-- Every other buffer the region owns besides the two accumulators, each at some contents. -/
def others3 (c : Dev nD) : sProp 𝕄 := Pipeline.scopedRestBut spec3 c [cc3_scratch0, cc3_scratch1]

/-- The accumulators (per-graph sums and counts) hold the last two components of `p`; nothing is said of the other buffers. -/
def Phi3At (c : Dev nD) (p : Vec F S128x10 .f32 × Vec F S128x128 .f32 × Vec F S128x1 .f32) : sProp 𝕄 :=
  iprop(((owns c.tc scM3_0 fullShare p.2.1 ∗ owns c.tc scM3_1 fullShare p.2.2) ∗ others3 c) ∗ ∃ r, prngReg c r)

/-- The invariant the region starts and ends with, with the two accumulators set apart at arbitrary contents. -/
theorem PhiA3_eq (c : Dev nD) : (Pipeline.ΦA spec3 c : sProp 𝕄)
    = iprop((((∃ d, owns c.tc scM3_0 fullShare d) ∗ (∃ d, owns c.tc scM3_1 fullShare d)) ∗ others3 c) ∗ ∃ r, prngReg c r) := by
  unfold Pipeline.ΦA others3
  rw [Pipeline.scopedRest_split_of_list spec3 c [cc3_scratch0, cc3_scratch1] (by decide) (by decide)]
  simp only [scM3_0, scM3_1, owns_whole, bigSepL_cons_cons, bigSepL_singleton]; rfl

/-- Reading a whole buffer is a bijection, so a whole memref is owned at `x` exactly when its buffer holds the one contents that read as `x`. -/
private theorem owns_unread {s : Shape} {e : EltTy} (c : Dev nD) {m : Memref sig .tc .vmem s e} (h : m.IsWhole) (x : Vec F s e) :
    (owns c.tc m fullShare x : sProp 𝕄) = (m.view.loc c.tc ↦[m.view.set]{fullShare} h.unread x) := by
  unfold owns
  refine BI.equiv_iff.mp ⟨?_, ?_⟩
  · show (_ : sProp 𝕄) ⊢ _; iintro ⟨%f, %hf, H⟩; obtain rfl := h.eq_unread hf; iexact H
  · show (_ : sProp 𝕄) ⊢ _; iintro H; iexists _; isplitr; · ipureintro; exact h.read_unread x
    iexact H

/-- Writes that cover the whole shape determine every entry read afterwards, whatever was there before. -/
private theorem owns_of_writes {s : Shape} {e : EltTy} (c : Dev nD) {m : Memref sig .tc .vmem s e} (v : View sig .tc .vmem s e) {L : List (View.Piece (Elt F) s e)}
    (hL : ∀ y, ∃ pc ∈ L, y ∈ pc.1.set) :
    iprop(∃ f, m.view.loc c.tc ↦[m.view.set]{fullShare} m.view.writes (Elt F) f L)
      ⊢ (owns c.tc m fullShare (v.read (Elt F) (v.writes (Elt F) v.junk L)) : sProp 𝕄) := by
  unfold owns; iintro ⟨%f, H⟩; iexists m.view.writes (Elt F) f L; isplitr
  · ipureintro; exact View.read_writes_of_cover _ _ _ _ _ hL
  · iexact H

section Runs
variable (c : Dev nD) (i : grid3.Coords) (arg1 : Memref sig .tc .vmem S5000x128 .f32) (harg1 : arg1.IsWhole) (arg2 : Memref sig .tc .vmem S5000x1 .i32) (harg2 : arg2.IsWhole) (arg3 : Memref sig .tc .vmem S128x10 .f32) (harg3 : arg3.IsWhole) (arg4 : Memref sig .tc .vmem S10 .f32) (harg4 : arg4.IsWhole) (arg5 : Memref sig .tc .vmem S128x10 .f32) (harg5 : arg5.IsWhole) (arg6 : Memref sig .tc .vmem S128x128 .f32) (harg6 : arg6.IsWhole) (arg7 : Memref sig .tc .vmem S128x1 .f32) (harg7 : arg7.IsWhole)

section A
variable (hc0 : cond3_0 i) (hc1 : ¬cond3_1 i)
  (x0 : Vec F S5000x128 .f32) (x1 : Vec F S5000x1 .i32) (x2 : Vec F S128x10 .f32) (x3 : Vec F S10 .f32)

noncomputable def kernelRun3_A :
    Σ' (L4 : List (View.Piece (Elt F) S128x10 .f32)) (LS0 : List (View.Piece (Elt F) S128x128 .f32)), { LS1 : List (View.Piece (Elt F) S128x1 .f32) //
      ∀ (xi4 : Vec F S128x10 .f32) (E : Set ℕ) (K : PUnit → sProp 𝕄),
        iprop(owns c.tc arg1 fullShare x0 ∗ owns c.tc arg2 fullShare x1 ∗ owns c.tc arg3 fullShare x2 ∗ owns c.tc arg4 fullShare x3 ∗ owns c.tc arg5 fullShare xi4 ∗ (∃ d, owns c.tc arg6 fullShare d) ∗ (∃ d, owns c.tc arg7 fullShare d)
            ∗ (iprop(owns c.tc arg1 fullShare x0 ∗ owns c.tc arg2 fullShare x1 ∗ owns c.tc arg3 fullShare x2 ∗ owns c.tc arg4 fullShare x3 ∗ owns c.tc arg5 fullShare xi4 ∗ (∃ f, arg6.view.loc c.tc ↦[arg6.view.set]{fullShare} arg6.view.writes (Elt F) f LS0) ∗ (∃ f, arg7.view.loc c.tc ↦[arg7.view.set]{fullShare} arg7.view.writes (Elt F) f LS1)) -∗ K ⟨⟩))
          ⊢ wp frame (wpE (defs₀ (F := F)) Variants.none c none) E (cc3__readout_kernel i arg1 harg1 arg2 harg2 arg3 harg3 arg4 harg4 arg5 harg5 arg6 harg6 arg7 harg7) K } := by
  refine ⟨[], ?_, ?_, fun xi4 E K => ?run⟩
  case run =>
    simp only [owns_unread c harg1, owns_unread c harg2, owns_unread c harg3, owns_unread c harg4, owns_unread c harg5, owns_unread c harg6, owns_unread c harg7]
    simp only [cc3__readout_kernel_eq_skeleton]; unfold cc3__readout_kernel_skel
    iintro ⟨H0, H1, H2, H3, H4, ⟨%ds0, HS0⟩, ⟨%ds1, HS1⟩, Hk⟩
    sl_exec (disch := first | exact hc0 | exact hc1)
    sl_step
    iapply Hk
    iframe H0 H1 H2 H3 H4
    isplitl [HS0]; · iexists _; iexact HS0
    iexists _; iexact HS1

def out3_A_4 : Vec F S128x10 .f32 :=
  VO3_4.read (Elt F) (VO3_4.writes (Elt F) VO3_4.junk (kernelRun3_A c i arg1 harg1 arg2 harg2 arg3 harg3 arg4 harg4 arg5 harg5 arg6 harg6 arg7 harg7 hc0 hc1 x0 x1 x2 x3).1)

theorem scover3_A_0 (y : S128x128.Idx) :
    ∃ pc ∈ (kernelRun3_A c i arg1 harg1 arg2 harg2 arg3 harg3 arg4 harg4 arg5 harg5 arg6 harg6 arg7 harg7 hc0 hc1 x0 x1 x2 x3).2.1, y ∈ pc.1.set :=
  View.cover_of_tiledL _ S128x128.size (by sl_kernel_rfl) y

def sout3_A_0 : Vec F S128x128 .f32 :=
  VS3_0.read (Elt F) (VS3_0.writes (Elt F) VS3_0.junk (kernelRun3_A c i arg1 harg1 arg2 harg2 arg3 harg3 arg4 harg4 arg5 harg5 arg6 harg6 arg7 harg7 hc0 hc1 x0 x1 x2 x3).2.1)

theorem scover3_A_1 (y : S128x1.Idx) :
    ∃ pc ∈ (kernelRun3_A c i arg1 harg1 arg2 harg2 arg3 harg3 arg4 harg4 arg5 harg5 arg6 harg6 arg7 harg7 hc0 hc1 x0 x1 x2 x3).2.2.1, y ∈ pc.1.set :=
  View.cover_of_tiledL _ S128x1.size (by sl_kernel_rfl) y

def sout3_A_1 : Vec F S128x1 .f32 :=
  VS3_1.read (Elt F) (VS3_1.writes (Elt F) VS3_1.junk (kernelRun3_A c i arg1 harg1 arg2 harg2 arg3 harg3 arg4 harg4 arg5 harg5 arg6 harg6 arg7 harg7 hc0 hc1 x0 x1 x2 x3).2.2.1)

def outs3_A : Vec F S128x10 .f32 × Vec F S128x128 .f32 × Vec F S128x1 .f32 :=
  (out3_A_4 c i arg1 harg1 arg2 harg2 arg3 harg3 arg4 harg4 arg5 harg5 arg6 harg6 arg7 harg7 hc0 hc1 x0 x1 x2 x3, sout3_A_0 c i arg1 harg1 arg2 harg2 arg3 harg3 arg4 harg4 arg5 harg5 arg6 harg6 arg7 harg7 hc0 hc1 x0 x1 x2 x3, sout3_A_1 c i arg1 harg1 arg2 harg2 arg3 harg3 arg4 harg4 arg5 harg5 arg6 harg6 arg7 harg7 hc0 hc1 x0 x1 x2 x3)

end A

section B
variable (hc0 : ¬cond3_0 i) (hc1 : ¬cond3_1 i)
  (x0 : Vec F S5000x128 .f32) (x1 : Vec F S5000x1 .i32) (x2 : Vec F S128x10 .f32) (x3 : Vec F S10 .f32) (xs0 : Vec F S128x128 .f32) (xs1 : Vec F S128x1 .f32)

noncomputable def kernelRun3_B :
    Σ' (L4 : List (View.Piece (Elt F) S128x10 .f32)) (LS0 : List (View.Piece (Elt F) S128x128 .f32)), { LS1 : List (View.Piece (Elt F) S128x1 .f32) //
      ∀ (xi4 : Vec F S128x10 .f32) (E : Set ℕ) (K : PUnit → sProp 𝕄),
        iprop(owns c.tc arg1 fullShare x0 ∗ owns c.tc arg2 fullShare x1 ∗ owns c.tc arg3 fullShare x2 ∗ owns c.tc arg4 fullShare x3 ∗ owns c.tc arg5 fullShare xi4 ∗ owns c.tc arg6 fullShare xs0 ∗ owns c.tc arg7 fullShare xs1
            ∗ (iprop(owns c.tc arg1 fullShare x0 ∗ owns c.tc arg2 fullShare x1 ∗ owns c.tc arg3 fullShare x2 ∗ owns c.tc arg4 fullShare x3 ∗ owns c.tc arg5 fullShare xi4 ∗ (∃ f, arg6.view.loc c.tc ↦[arg6.view.set]{fullShare} arg6.view.writes (Elt F) f LS0) ∗ (∃ f, arg7.view.loc c.tc ↦[arg7.view.set]{fullShare} arg7.view.writes (Elt F) f LS1)) -∗ K ⟨⟩))
          ⊢ wp frame (wpE (defs₀ (F := F)) Variants.none c none) E (cc3__readout_kernel i arg1 harg1 arg2 harg2 arg3 harg3 arg4 harg4 arg5 harg5 arg6 harg6 arg7 harg7) K } := by
  refine ⟨[], ?_, ?_, fun xi4 E K => ?run⟩
  case run =>
    simp only [owns_unread c harg1, owns_unread c harg2, owns_unread c harg3, owns_unread c harg4, owns_unread c harg5, owns_unread c harg6, owns_unread c harg7]
    simp only [cc3__readout_kernel_eq_skeleton]; unfold cc3__readout_kernel_skel
    iintro ⟨H0, H1, H2, H3, H4, HS0, HS1, Hk⟩
    sl_exec (disch := first | exact hc0 | exact hc1)
    sl_step
    iapply Hk
    iframe H0 H1 H2 H3 H4
    isplitl [HS0]; · iexists _; iexact HS0
    iexists _; iexact HS1

def out3_B_4 : Vec F S128x10 .f32 :=
  VO3_4.read (Elt F) (VO3_4.writes (Elt F) VO3_4.junk (kernelRun3_B c i arg1 harg1 arg2 harg2 arg3 harg3 arg4 harg4 arg5 harg5 arg6 harg6 arg7 harg7 hc0 hc1 x0 x1 x2 x3 xs0 xs1).1)

theorem scover3_B_0 (y : S128x128.Idx) :
    ∃ pc ∈ (kernelRun3_B c i arg1 harg1 arg2 harg2 arg3 harg3 arg4 harg4 arg5 harg5 arg6 harg6 arg7 harg7 hc0 hc1 x0 x1 x2 x3 xs0 xs1).2.1, y ∈ pc.1.set :=
  View.cover_of_tiledL _ S128x128.size (by sl_kernel_rfl) y

def sout3_B_0 : Vec F S128x128 .f32 :=
  VS3_0.read (Elt F) (VS3_0.writes (Elt F) VS3_0.junk (kernelRun3_B c i arg1 harg1 arg2 harg2 arg3 harg3 arg4 harg4 arg5 harg5 arg6 harg6 arg7 harg7 hc0 hc1 x0 x1 x2 x3 xs0 xs1).2.1)

theorem scover3_B_1 (y : S128x1.Idx) :
    ∃ pc ∈ (kernelRun3_B c i arg1 harg1 arg2 harg2 arg3 harg3 arg4 harg4 arg5 harg5 arg6 harg6 arg7 harg7 hc0 hc1 x0 x1 x2 x3 xs0 xs1).2.2.1, y ∈ pc.1.set :=
  View.cover_of_tiledL _ S128x1.size (by sl_kernel_rfl) y

def sout3_B_1 : Vec F S128x1 .f32 :=
  VS3_1.read (Elt F) (VS3_1.writes (Elt F) VS3_1.junk (kernelRun3_B c i arg1 harg1 arg2 harg2 arg3 harg3 arg4 harg4 arg5 harg5 arg6 harg6 arg7 harg7 hc0 hc1 x0 x1 x2 x3 xs0 xs1).2.2.1)

def outs3_B : Vec F S128x10 .f32 × Vec F S128x128 .f32 × Vec F S128x1 .f32 :=
  (out3_B_4 c i arg1 harg1 arg2 harg2 arg3 harg3 arg4 harg4 arg5 harg5 arg6 harg6 arg7 harg7 hc0 hc1 x0 x1 x2 x3 xs0 xs1, sout3_B_0 c i arg1 harg1 arg2 harg2 arg3 harg3 arg4 harg4 arg5 harg5 arg6 harg6 arg7 harg7 hc0 hc1 x0 x1 x2 x3 xs0 xs1, sout3_B_1 c i arg1 harg1 arg2 harg2 arg3 harg3 arg4 harg4 arg5 harg5 arg6 harg6 arg7 harg7 hc0 hc1 x0 x1 x2 x3 xs0 xs1)

end B

section C
variable (hc0 : ¬cond3_0 i) (hc1 : cond3_1 i)
  (x0 : Vec F S5000x128 .f32) (x1 : Vec F S5000x1 .i32) (x2 : Vec F S128x10 .f32) (x3 : Vec F S10 .f32) (xs0 : Vec F S128x128 .f32) (xs1 : Vec F S128x1 .f32)

noncomputable def kernelRun3_C :
    Σ' (L4 : List (View.Piece (Elt F) S128x10 .f32)) (LS0 : List (View.Piece (Elt F) S128x128 .f32)), { LS1 : List (View.Piece (Elt F) S128x1 .f32) //
      ∀ (E : Set ℕ) (K : PUnit → sProp 𝕄),
        iprop(owns c.tc arg1 fullShare x0 ∗ owns c.tc arg2 fullShare x1 ∗ owns c.tc arg3 fullShare x2 ∗ owns c.tc arg4 fullShare x3 ∗ (∃ d, owns c.tc arg5 fullShare d) ∗ owns c.tc arg6 fullShare xs0 ∗ owns c.tc arg7 fullShare xs1
            ∗ (iprop(owns c.tc arg1 fullShare x0 ∗ owns c.tc arg2 fullShare x1 ∗ owns c.tc arg3 fullShare x2 ∗ owns c.tc arg4 fullShare x3 ∗ (∃ f, arg5.view.loc c.tc ↦[arg5.view.set]{fullShare} arg5.view.writes (Elt F) f L4) ∗ (∃ f, arg6.view.loc c.tc ↦[arg6.view.set]{fullShare} arg6.view.writes (Elt F) f LS0) ∗ (∃ f, arg7.view.loc c.tc ↦[arg7.view.set]{fullShare} arg7.view.writes (Elt F) f LS1)) -∗ K ⟨⟩))
          ⊢ wp frame (wpE (defs₀ (F := F)) Variants.none c none) E (cc3__readout_kernel i arg1 harg1 arg2 harg2 arg3 harg3 arg4 harg4 arg5 harg5 arg6 harg6 arg7 harg7) K } := by
  refine ⟨?_, ?_, ?_, fun E K => ?run⟩
  case run =>
    simp only [owns_unread c harg1, owns_unread c harg2, owns_unread c harg3, owns_unread c harg4, owns_unread c harg5, owns_unread c harg6, owns_unread c harg7]
    simp only [cc3__readout_kernel_eq_skeleton]; unfold cc3__readout_kernel_skel
    iintro ⟨H0, H1, H2, H3, ⟨%d4, H4⟩, HS0, HS1, Hk⟩
    sl_exec (disch := first | exact hc0 | exact hc1)
    sl_step
    iapply Hk
    iframe H0 H1 H2 H3
    isplitl [H4]; · iexists _; iexact H4
    isplitl [HS0]; · iexists _; iexact HS0
    iexists _; iexact HS1

theorem cover3_C_4 (y : S128x10.Idx) :
    ∃ pc ∈ (kernelRun3_C c i arg1 harg1 arg2 harg2 arg3 harg3 arg4 harg4 arg5 harg5 arg6 harg6 arg7 harg7 hc0 hc1 x0 x1 x2 x3 xs0 xs1).1, y ∈ pc.1.set :=
  View.cover_of_tiledL _ S128x10.size (by sl_kernel_rfl) y

def out3_C_4 : Vec F S128x10 .f32 :=
  VO3_4.read (Elt F) (VO3_4.writes (Elt F) VO3_4.junk (kernelRun3_C c i arg1 harg1 arg2 harg2 arg3 harg3 arg4 harg4 arg5 harg5 arg6 harg6 arg7 harg7 hc0 hc1 x0 x1 x2 x3 xs0 xs1).1)

theorem scover3_C_0 (y : S128x128.Idx) :
    ∃ pc ∈ (kernelRun3_C c i arg1 harg1 arg2 harg2 arg3 harg3 arg4 harg4 arg5 harg5 arg6 harg6 arg7 harg7 hc0 hc1 x0 x1 x2 x3 xs0 xs1).2.1, y ∈ pc.1.set :=
  View.cover_of_tiledL _ S128x128.size (by sl_kernel_rfl) y

def sout3_C_0 : Vec F S128x128 .f32 :=
  VS3_0.read (Elt F) (VS3_0.writes (Elt F) VS3_0.junk (kernelRun3_C c i arg1 harg1 arg2 harg2 arg3 harg3 arg4 harg4 arg5 harg5 arg6 harg6 arg7 harg7 hc0 hc1 x0 x1 x2 x3 xs0 xs1).2.1)

theorem scover3_C_1 (y : S128x1.Idx) :
    ∃ pc ∈ (kernelRun3_C c i arg1 harg1 arg2 harg2 arg3 harg3 arg4 harg4 arg5 harg5 arg6 harg6 arg7 harg7 hc0 hc1 x0 x1 x2 x3 xs0 xs1).2.2.1, y ∈ pc.1.set :=
  View.cover_of_tiledL _ S128x1.size (by sl_kernel_rfl) y

def sout3_C_1 : Vec F S128x1 .f32 :=
  VS3_1.read (Elt F) (VS3_1.writes (Elt F) VS3_1.junk (kernelRun3_C c i arg1 harg1 arg2 harg2 arg3 harg3 arg4 harg4 arg5 harg5 arg6 harg6 arg7 harg7 hc0 hc1 x0 x1 x2 x3 xs0 xs1).2.2.1)

def outs3_C : Vec F S128x10 .f32 × Vec F S128x128 .f32 × Vec F S128x1 .f32 :=
  (out3_C_4 c i arg1 harg1 arg2 harg2 arg3 harg3 arg4 harg4 arg5 harg5 arg6 harg6 arg7 harg7 hc0 hc1 x0 x1 x2 x3 xs0 xs1, sout3_C_0 c i arg1 harg1 arg2 harg2 arg3 harg3 arg4 harg4 arg5 harg5 arg6 harg6 arg7 harg7 hc0 hc1 x0 x1 x2 x3 xs0 xs1, sout3_C_1 c i arg1 harg1 arg2 harg2 arg3 harg3 arg4 harg4 arg5 harg5 arg6 harg6 arg7 harg7 hc0 hc1 x0 x1 x2 x3 xs0 xs1)

end C

end Runs

/-- The result block and the two accumulators after grid point `n`: the first point starts from cleared accumulators, each later one from what its predecessor left, and the last also forms the result. -/
def outsAt3 (c : Dev nD) : (n : ℕ) → n < cfg3.N → Vec F S128x10 .f32 × Vec F S128x128 .f32 × Vec F S128x1 .f32
  | 0, hn => outs3_A c (grid3.coords ⟨0, hn⟩) _ (hs3_0 ⟨0, hn⟩) _ (hs3_1 ⟨0, hn⟩) _ (hs3_2 ⟨0, hn⟩) _ (hs3_3 ⟨0, hn⟩) _ (hs3_4 ⟨0, hn⟩) scM3_0 (Memref.isWhole_whole _) scM3_1 (Memref.isWhole_whole _) ((hcond3_0 ⟨0, hn⟩).mpr rfl) (mt (hcond3_1 ⟨0, hn⟩).mp (show ¬ (0 : ℕ) = 9 by decide)) (iblk3 V c 0 ⟨0, hn⟩) (iblk3 V c 1 ⟨0, hn⟩) (iblk3 V c 2 ⟨0, hn⟩) (iblk3 V c 3 ⟨0, hn⟩)
  | n + 1, hn =>
    if h1 : n + 1 = 9 then
      outs3_C c (grid3.coords ⟨n + 1, hn⟩) _ (hs3_0 ⟨n + 1, hn⟩) _ (hs3_1 ⟨n + 1, hn⟩) _ (hs3_2 ⟨n + 1, hn⟩) _ (hs3_3 ⟨n + 1, hn⟩) _ (hs3_4 ⟨n + 1, hn⟩) scM3_0 (Memref.isWhole_whole _) scM3_1 (Memref.isWhole_whole _) (mt (hcond3_0 ⟨n + 1, hn⟩).mp n.succ_ne_zero) ((hcond3_1 ⟨n + 1, hn⟩).mpr h1) (iblk3 V c 0 ⟨n + 1, hn⟩) (iblk3 V c 1 ⟨n + 1, hn⟩) (iblk3 V c 2 ⟨n + 1, hn⟩) (iblk3 V c 3 ⟨n + 1, hn⟩) (outsAt3 c n (Nat.lt_of_succ_lt hn)).2.1 (outsAt3 c n (Nat.lt_of_succ_lt hn)).2.2
    else
      outs3_B c (grid3.coords ⟨n + 1, hn⟩) _ (hs3_0 ⟨n + 1, hn⟩) _ (hs3_1 ⟨n + 1, hn⟩) _ (hs3_2 ⟨n + 1, hn⟩) _ (hs3_3 ⟨n + 1, hn⟩) _ (hs3_4 ⟨n + 1, hn⟩) scM3_0 (Memref.isWhole_whole _) scM3_1 (Memref.isWhole_whole _) (mt (hcond3_0 ⟨n + 1, hn⟩).mp n.succ_ne_zero) (mt (hcond3_1 ⟨n + 1, hn⟩).mp h1) (iblk3 V c 0 ⟨n + 1, hn⟩) (iblk3 V c 1 ⟨n + 1, hn⟩) (iblk3 V c 2 ⟨n + 1, hn⟩) (iblk3 V c 3 ⟨n + 1, hn⟩) (outsAt3 c n (Nat.lt_of_succ_lt hn)).2.1 (outsAt3 c n (Nat.lt_of_succ_lt hn)).2.2

theorem outsAt3_A (c : Dev nD) (t : Fin cfg3.N) (h0 : t.val = 0) (h1 : ¬t.val = 9) :
    outsAt3 V c t.val t.isLt = (out3_A_4 c (grid3.coords t) (ms3_0 t) (hs3_0 t) (ms3_1 t) (hs3_1 t) (ms3_2 t) (hs3_2 t) (ms3_3 t) (hs3_3 t) (ms3_4 t) (hs3_4 t) scM3_0 (Memref.isWhole_whole _) scM3_1 (Memref.isWhole_whole _) ((hcond3_0 t).mpr h0) (fun h => h1 ((hcond3_1 t).mp h)) (iblk3 V c 0 t) (iblk3 V c 1 t) (iblk3 V c 2 t) (iblk3 V c 3 t),
      sout3_A_0 c (grid3.coords t) (ms3_0 t) (hs3_0 t) (ms3_1 t) (hs3_1 t) (ms3_2 t) (hs3_2 t) (ms3_3 t) (hs3_3 t) (ms3_4 t) (hs3_4 t) scM3_0 (Memref.isWhole_whole _) scM3_1 (Memref.isWhole_whole _) ((hcond3_0 t).mpr h0) (fun h => h1 ((hcond3_1 t).mp h)) (iblk3 V c 0 t) (iblk3 V c 1 t) (iblk3 V c 2 t) (iblk3 V c 3 t),
      sout3_A_1 c (grid3.coords t) (ms3_0 t) (hs3_0 t) (ms3_1 t) (hs3_1 t) (ms3_2 t) (hs3_2 t) (ms3_3 t) (hs3_3 t) (ms3_4 t) (hs3_4 t) scM3_0 (Memref.isWhole_whole _) scM3_1 (Memref.isWhole_whole _) ((hcond3_0 t).mpr h0) (fun h => h1 ((hcond3_1 t).mp h)) (iblk3 V c 0 t) (iblk3 V c 1 t) (iblk3 V c 2 t) (iblk3 V c 3 t)) := by
  obtain ⟨_ | n, hn⟩ := t
  exacts [rfl, absurd h0 n.succ_ne_zero]

theorem outsAt3_B (c : Dev nD) (t : Fin cfg3.N) (h0 : ¬t.val = 0) (h1 : ¬t.val = 9) :
    outsAt3 V c t.val t.isLt = (out3_B_4 c (grid3.coords t) (ms3_0 t) (hs3_0 t) (ms3_1 t) (hs3_1 t) (ms3_2 t) (hs3_2 t) (ms3_3 t) (hs3_3 t) (ms3_4 t) (hs3_4 t) scM3_0 (Memref.isWhole_whole _) scM3_1 (Memref.isWhole_whole _) (fun h => h0 ((hcond3_0 t).mp h)) (fun h => h1 ((hcond3_1 t).mp h)) (iblk3 V c 0 t) (iblk3 V c 1 t) (iblk3 V c 2 t) (iblk3 V c 3 t) (outsAt3 V c (t.val - 1) (Nat.lt_of_le_of_lt (Nat.sub_le _ _) t.isLt)).2.1 (outsAt3 V c (t.val - 1) (Nat.lt_of_le_of_lt (Nat.sub_le _ _) t.isLt)).2.2,
      sout3_B_0 c (grid3.coords t) (ms3_0 t) (hs3_0 t) (ms3_1 t) (hs3_1 t) (ms3_2 t) (hs3_2 t) (ms3_3 t) (hs3_3 t) (ms3_4 t) (hs3_4 t) scM3_0 (Memref.isWhole_whole _) scM3_1 (Memref.isWhole_whole _) (fun h => h0 ((hcond3_0 t).mp h)) (fun h => h1 ((hcond3_1 t).mp h)) (iblk3 V c 0 t) (iblk3 V c 1 t) (iblk3 V c 2 t) (iblk3 V c 3 t) (outsAt3 V c (t.val - 1) (Nat.lt_of_le_of_lt (Nat.sub_le _ _) t.isLt)).2.1 (outsAt3 V c (t.val - 1) (Nat.lt_of_le_of_lt (Nat.sub_le _ _) t.isLt)).2.2,
      sout3_B_1 c (grid3.coords t) (ms3_0 t) (hs3_0 t) (ms3_1 t) (hs3_1 t) (ms3_2 t) (hs3_2 t) (ms3_3 t) (hs3_3 t) (ms3_4 t) (hs3_4 t) scM3_0 (Memref.isWhole_whole _) scM3_1 (Memref.isWhole_whole _) (fun h => h0 ((hcond3_0 t).mp h)) (fun h => h1 ((hcond3_1 t).mp h)) (iblk3 V c 0 t) (iblk3 V c 1 t) (iblk3 V c 2 t) (iblk3 V c 3 t) (outsAt3 V c (t.val - 1) (Nat.lt_of_le_of_lt (Nat.sub_le _ _) t.isLt)).2.1 (outsAt3 V c (t.val - 1) (Nat.lt_of_le_of_lt (Nat.sub_le _ _) t.isLt)).2.2) := by
  obtain ⟨_ | n, hn⟩ := t
  exacts [absurd rfl h0, (dif_neg h1).trans rfl]

theorem outsAt3_C (c : Dev nD) (t : Fin cfg3.N) (h0 : ¬t.val = 0) (h1 : t.val = 9) :
    outsAt3 V c t.val t.isLt = (out3_C_4 c (grid3.coords t) (ms3_0 t) (hs3_0 t) (ms3_1 t) (hs3_1 t) (ms3_2 t) (hs3_2 t) (ms3_3 t) (hs3_3 t) (ms3_4 t) (hs3_4 t) scM3_0 (Memref.isWhole_whole _) scM3_1 (Memref.isWhole_whole _) (fun h => h0 ((hcond3_0 t).mp h)) ((hcond3_1 t).mpr h1) (iblk3 V c 0 t) (iblk3 V c 1 t) (iblk3 V c 2 t) (iblk3 V c 3 t) (outsAt3 V c (t.val - 1) (Nat.lt_of_le_of_lt (Nat.sub_le _ _) t.isLt)).2.1 (outsAt3 V c (t.val - 1) (Nat.lt_of_le_of_lt (Nat.sub_le _ _) t.isLt)).2.2,
      sout3_C_0 c (grid3.coords t) (ms3_0 t) (hs3_0 t) (ms3_1 t) (hs3_1 t) (ms3_2 t) (hs3_2 t) (ms3_3 t) (hs3_3 t) (ms3_4 t) (hs3_4 t) scM3_0 (Memref.isWhole_whole _) scM3_1 (Memref.isWhole_whole _) (fun h => h0 ((hcond3_0 t).mp h)) ((hcond3_1 t).mpr h1) (iblk3 V c 0 t) (iblk3 V c 1 t) (iblk3 V c 2 t) (iblk3 V c 3 t) (outsAt3 V c (t.val - 1) (Nat.lt_of_le_of_lt (Nat.sub_le _ _) t.isLt)).2.1 (outsAt3 V c (t.val - 1) (Nat.lt_of_le_of_lt (Nat.sub_le _ _) t.isLt)).2.2,
      sout3_C_1 c (grid3.coords t) (ms3_0 t) (hs3_0 t) (ms3_1 t) (hs3_1 t) (ms3_2 t) (hs3_2 t) (ms3_3 t) (hs3_3 t) (ms3_4 t) (hs3_4 t) scM3_0 (Memref.isWhole_whole _) scM3_1 (Memref.isWhole_whole _) (fun h => h0 ((hcond3_0 t).mp h)) ((hcond3_1 t).mpr h1) (iblk3 V c 0 t) (iblk3 V c 1 t) (iblk3 V c 2 t) (iblk3 V c 3 t) (outsAt3 V c (t.val - 1) (Nat.lt_of_le_of_lt (Nat.sub_le _ _) t.isLt)).2.1 (outsAt3 V c (t.val - 1) (Nat.lt_of_le_of_lt (Nat.sub_le _ _) t.isLt)).2.2) := by
  obtain ⟨_ | n, hn⟩ := t
  exacts [absurd rfl h0, (dif_pos h1).trans rfl]

/-- The invariant before grid point `n`: the accumulators hold what point `n - 1` left. -/
def PhiS3 (c : Dev nD) : (n : ℕ) → n ≤ cfg3.N → sProp 𝕄
  | 0, _ => Pipeline.ΦA spec3 c
  | n + 1, hn => Phi3At c (outsAt3 V c n hn)

theorem PhiS3_zero (c : Dev nD) (n : ℕ) (h : n ≤ cfg3.N) (hz : n = 0) : PhiS3 V c n h = Pipeline.ΦA spec3 c := by
  subst hz; rfl

theorem PhiS3_pos (c : Dev nD) (n : ℕ) (h : n ≤ cfg3.N) (hz : n ≠ 0) : PhiS3 V c n h = Phi3At c (outsAt3 V c (n - 1) (by omega)) := by
  cases n with
  | zero => exact absurd rfl hz
  | succ n => rfl

def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => (outsAt3 V c t.val t.isLt).1
  Φ t := PhiS3 V c t.val (Nat.le_of_lt_succ t.isLt)
  q _ := fullShare
  owed _ := 0

theorem A_eq3 (c : Dev nD) (w : Fin cfg3.W) : (dat3 V c).A w = V c (Pipeline.arrRef spec3 w) := rfl

theorem PhiS3_castSucc (c : Dev nD) (t : Fin cfg3.N) :
    (dat3 V c).Φ t.castSucc = PhiS3 V c t.val (Nat.le_of_lt t.isLt) := rfl

theorem after3_4 (c : Dev nD) (t : Fin cfg3.N) : (dat3 V c).after 4 t = (outsAt3 V c t.val t.isLt).1 := rfl

theorem before3_0 (c : Dev nD) (t : Fin cfg3.N) (d) : (dat3 V c).before 0 t d = iblk3 V c 0 t :=
  (dat3 V c).before_in_eq_fetched 0 rfl (fun _ => rfl) (fun _ _ _ => rfl) (fun _ => rfl) t d
theorem before3_1 (c : Dev nD) (t : Fin cfg3.N) (d) : (dat3 V c).before 1 t d = iblk3 V c 1 t :=
  (dat3 V c).before_in_eq_fetched 1 rfl (fun _ => rfl) (fun _ _ _ => rfl) (fun _ => rfl) t d
theorem before3_2 (c : Dev nD) (t : Fin cfg3.N) (d) : (dat3 V c).before 2 t d = iblk3 V c 2 t :=
  (dat3 V c).before_in_eq_fetched 2 rfl (fun _ => rfl) (fun _ _ _ => rfl) (fun _ => rfl) t d
theorem before3_3 (c : Dev nD) (t : Fin cfg3.N) (d) : (dat3 V c).before 3 t d = iblk3 V c 3 t :=
  (dat3 V c).before_in_eq_fetched 3 rfl (fun _ => rfl) (fun _ _ _ => rfl) (fun _ => rfl) t d

set_option maxHeartbeats 1000000 in
/-- One grid point's body carries the invariant from `t` to `t + 1` and leaves every input block as it found it. -/
theorem sound_body3 (c : Dev nD) (t : Fin cfg3.N) :
    iprop((dat3 V c).Φ t.castSucc ∗ (dat3 V c).owesAt () t.castSucc
    ∗ (∃ d, owns c.tc (ms3_0 t) fullShare ((dat3 V c).before 0 t d))
    ∗ (∃ d, owns c.tc (ms3_1 t) fullShare ((dat3 V c).before 1 t d))
    ∗ (∃ d, owns c.tc (ms3_2 t) fullShare ((dat3 V c).before 2 t d))
    ∗ (∃ d, owns c.tc (ms3_3 t) fullShare ((dat3 V c).before 3 t d))
    ∗ (∃ d, owns c.tc (ms3_4 t) fullShare ((dat3 V c).before 4 t d)))
      ⊢ wp frame (wpE (defs₀ (F := F)) Variants.none c none) Set.univ (bodyAt3 t) fun _ =>
        iprop((dat3 V c).Φ t.succ ∗ (dat3 V c).owesAt () t.succ
    ∗ (dat3 V c).leavesExact 0 t
    ∗ (dat3 V c).leavesExact 1 t
    ∗ (dat3 V c).leavesExact 2 t
    ∗ (dat3 V c).leavesExact 3 t
    ∗ (dat3 V c).leavesExact 4 t) := by
  unfold bodyAt3
  simp only [before3_0, before3_1, before3_2, before3_3]
  rewrite [show (dat3 V c).owesAt () t.succ = (dat3 V c).owesAt () t.castSucc from rfl,
    show (dat3 V c).Φ t.succ = Phi3At c (outsAt3 V c t.val t.isLt) from rfl,
    show (dat3 V c).leavesExact 0 t = owns c.tc (ms3_0 t) fullShare (iblk3 V c 0 t) from rfl,
    show (dat3 V c).leavesExact 1 t = owns c.tc (ms3_1 t) fullShare (iblk3 V c 1 t) from rfl,
    show (dat3 V c).leavesExact 2 t = owns c.tc (ms3_2 t) fullShare (iblk3 V c 2 t) from rfl,
    show (dat3 V c).leavesExact 3 t = owns c.tc (ms3_3 t) fullShare (iblk3 V c 3 t) from rfl]
  have hN : t.val < 10 := lt_of_lt_of_eq t.isLt (show cfg3.N = 10 from N_3)
  by_cases h0 : t.val = 0
  · have h1 : ¬t.val = 9 := by omega
    rw [Dat.leavesExact_idle (dat3 V c) 4 t (idle3_4 t h1).1 (idle3_4 t h1).2, outsAt3_A V c t h0 h1]
    unfold Phi3At sout3_A_0 sout3_A_1; dsimp only
    rw [PhiS3_castSucc V c t, PhiS3_zero V c _ _ h0, PhiA3_eq]
    iintro ⟨⟨⟨⟨HS0, HS1⟩, Hoth⟩, Hg⟩, Ho, ⟨%d0, H0⟩, ⟨%d1, H1⟩, ⟨%d2, H2⟩, ⟨%d3, H3⟩, ⟨%d4, H4⟩⟩
    iapply ((kernelRun3_A c (grid3.coords t) _ _ _ _ _ _ _ _ _ _ _ _ _ _ ((hcond3_0 t).mpr h0) (mt (hcond3_1 t).mp h1) (iblk3 V c 0 t) (iblk3 V c 1 t) (iblk3 V c 2 t) (iblk3 V c 3 t)).2.2.2 _ Set.univ _)
    iframe H0 H1 H2 H3 H4 HS0 HS1
    iintro ⟨H0, H1, H2, H3, H4, HS0, HS1⟩
    ihave HT0 := owns_of_writes c VS3_0 (fun y => scover3_A_0 (y := y) ..) $$ HS0
    ihave HT1 := owns_of_writes c VS3_1 (fun y => scover3_A_1 (y := y) ..) $$ HS1
    iframe Hoth HT0 HT1 Hg Ho H0 H1 H2 H3
    iexists _; iexact H4
  · by_cases h1 : t.val = 9
    · rw [show (dat3 V c).leavesExact 4 t = owns c.tc (ms3_4 t) fullShare ((dat3 V c).after 4 t) from by
        unfold Dat.leavesExact; rw [live3_4 t h1], after3_4]
      rw [outsAt3_C V c t h0 h1]
      unfold Phi3At out3_C_4 sout3_C_0 sout3_C_1; dsimp only
      rw [PhiS3_castSucc V c t, PhiS3_pos V c _ _ h0]; unfold Phi3At
      iintro ⟨⟨⟨⟨HS0, HS1⟩, Hoth⟩, Hg⟩, Ho, ⟨%d0, H0⟩, ⟨%d1, H1⟩, ⟨%d2, H2⟩, ⟨%d3, H3⟩, ⟨%d4, H4⟩⟩
      iapply ((kernelRun3_C c (grid3.coords t) _ _ _ _ _ _ _ _ _ _ _ _ _ _ (mt (hcond3_0 t).mp h0) ((hcond3_1 t).mpr h1) (iblk3 V c 0 t) (iblk3 V c 1 t) (iblk3 V c 2 t) (iblk3 V c 3 t) _ _).2.2.2 Set.univ _)
      iframe H0 H1 H2 H3 HS0 HS1
      isplitl [H4]; · iexists _; iexact H4
      iintro ⟨H0, H1, H2, H3, H4, HS0, HS1⟩
      ihave HT4 := owns_of_writes c VO3_4 (fun y => cover3_C_4 (y := y) ..) $$ H4
      ihave HT0 := owns_of_writes c VS3_0 (fun y => scover3_C_0 (y := y) ..) $$ HS0
      ihave HT1 := owns_of_writes c VS3_1 (fun y => scover3_C_1 (y := y) ..) $$ HS1
      iframe
    · rw [Dat.leavesExact_idle (dat3 V c) 4 t (idle3_4 t h1).1 (idle3_4 t h1).2, outsAt3_B V c t h0 h1]
      unfold Phi3At sout3_B_0 sout3_B_1; dsimp only
      rw [PhiS3_castSucc V c t, PhiS3_pos V c _ _ h0]; unfold Phi3At
      iintro ⟨⟨⟨⟨HS0, HS1⟩, Hoth⟩, Hg⟩, Ho, ⟨%d0, H0⟩, ⟨%d1, H1⟩, ⟨%d2, H2⟩, ⟨%d3, H3⟩, ⟨%d4, H4⟩⟩
      iapply ((kernelRun3_B c (grid3.coords t) _ _ _ _ _ _ _ _ _ _ _ _ _ _ (mt (hcond3_0 t).mp h0) (mt (hcond3_1 t).mp h1) (iblk3 V c 0 t) (iblk3 V c 1 t) (iblk3 V c 2 t) (iblk3 V c 3 t) _ _).2.2.2 _ Set.univ _)
      iframe H0 H1 H2 H3 H4 HS0 HS1
      iintro ⟨H0, H1, H2, H3, H4, HS0, HS1⟩
      ihave HT0 := owns_of_writes c VS3_0 (fun y => scover3_B_0 (y := y) ..) $$ HS0
      ihave HT1 := owns_of_writes c VS3_1 (fun y => scover3_B_1 (y := y) ..) $$ HS1
      iframe Hoth HT0 HT1 Hg Ho H0 H1 H2 H3
      iexists _; iexact H4

theorem body_obligation3 (c : Dev nD) : BodyObligation (dat3 (F := F) V c) (defs₀ (F := F)) Variants.none () Set.univ := fun t => by
  rw [bigSep_W3, bigSep_W3]
  exact sound_body3 V c t

theorem hin3 (c : Dev nD) : Pipeline.ΦA spec3 c ⊢ (dat3 V c).Φ 0 := .of_eq rfl

theorem hout3 (c : Dev nD) : (dat3 V c).Φ (Fin.last cfg3.N) ⊢ Pipeline.ΦA spec3 c := by
  rw [show (dat3 V c).Φ (Fin.last cfg3.N) = PhiS3 V c cfg3.N (Nat.le_refl _) from rfl, PhiS3_pos V c _ _ (by have : cfg3.N = 10 := N_3; omega), PhiA3_eq]
  unfold Phi3At
  iintro ⟨⟨⟨HS0, HS1⟩, Ho⟩, Hg⟩
  iframe Ho Hg
  isplitl [HS0]; · iexists _; iexact HS0
  iexists _; iexact HS1

end Cert.KernelIdeal.Hand

end
-- ==== Proof.KI.Run.lean ====
import proofs.«431499_j78546361909690_1_alg».proof.Proof.KI.RunCond
import proofs.«431499_j78546361909690_1_alg».proof.Proof.KI.Lin0
import proofs.«431499_j78546361909690_1_alg».proof.Proof.KI.Lin1
import proofs.«431499_j78546361909690_1_alg».proof.Proof.KI.Lin2
import proofs.«431499_j78546361909690_1_alg».proof.Proof.KI.Readout

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev E3 : (c : Dev nD) → (b : Ref sig .tc) → Buf (Elt F) ((c : Thread nD τ).loc b) := fun c b => V3 m c b
def o4 (c : Dev nD) : Buf (Elt F) ((c : Thread nD τ).loc main_v39) := (dat0 (E3 m) c).arrAt 3 cfg0.N
abbrev U4 (c : Dev nD) : Valuation τ sig (Elt F) := Function.update (V3 m c) main_v39 (o4 m c)
abbrev U5 (c : Dev nD) : Valuation τ sig (Elt F) := StableHlo.after hostOps1 (U4 m c)
abbrev E5 : (c : Dev nD) → (b : Ref sig .tc) → Buf (Elt F) ((c : Thread nD τ).loc b) := fun c b => U5 m c b
def o6 (c : Dev nD) : Buf (Elt F) ((c : Thread nD τ).loc main_v69) := (dat1 (E5 m) c).arrAt 3 cfg1.N
abbrev U6 (c : Dev nD) : Valuation τ sig (Elt F) := Function.update (U5 m c) main_v69 (o6 m c)
abbrev U7 (c : Dev nD) : Valuation τ sig (Elt F) := StableHlo.after hostOps2 (U6 m c)
abbrev E7 : (c : Dev nD) → (b : Ref sig .tc) → Buf (Elt F) ((c : Thread nD τ).loc b) := fun c b => U7 m c b
def o8 (c : Dev nD) : Buf (Elt F) ((c : Thread nD τ).loc main_v99) := (dat2 (E7 m) c).arrAt 3 cfg2.N
abbrev U8 (c : Dev nD) : Valuation τ sig (Elt F) := Function.update (U7 m c) main_v99 (o8 m c)
abbrev U9 (c : Dev nD) : Valuation τ sig (Elt F) := StableHlo.after hostOps3 (U8 m c)
abbrev E9 : (c : Dev nD) → (b : Ref sig .tc) → Buf (Elt F) ((c : Thread nD τ).loc b) := fun c b => U9 m c b
def o10 (c : Dev nD) : Buf (Elt F) ((c : Thread nD τ).loc main_v101) := (dat3 (E9 m) c).arrAt 4 cfg3.N
abbrev U10 (c : Dev nD) : Valuation τ sig (Elt F) := Function.update (U9 m c) main_v101 (o10 m c)

def outs : Outs (F := F) := fun j r c =>
  match j with
  | 4 => U4 m c r
  | 6 => U6 m c r
  | 8 => U8 m c r
  | _ => U10 m c r

/-- Writing back what an updated function already holds at `a` gives that function. -/
private theorem update_update_self {α : Type*} [DecidableEq α] {β : α → Type*} {f g : (a : α) → β a} (h : f = g) (a : α) (v : β a) :
    Function.update f a (Function.update g a v a) = Function.update g a v := by rw [h, Function.update_self]

theorem V4_eq (c : Dev nD) : V4 m (outs m) c = U4 m c := update_update_self rfl _ _
theorem V5_eq (c : Dev nD) : V5 m (outs m) c = U5 m c := congrArg (StableHlo.after hostOps1) (V4_eq m c)
theorem V6_eq (c : Dev nD) : V6 m (outs m) c = U6 m c := update_update_self (V5_eq m c) _ _
theorem V7_eq (c : Dev nD) : V7 m (outs m) c = U7 m c := congrArg (StableHlo.after hostOps2) (V6_eq m c)
theorem V8_eq (c : Dev nD) : V8 m (outs m) c = U8 m c := update_update_self (V7_eq m c) _ _
theorem V9_eq (c : Dev nD) : V9 m (outs m) c = U9 m c := congrArg (StableHlo.after hostOps3) (V8_eq m c)
theorem V10_eq (c : Dev nD) : V10 m (outs m) c = U10 m c := update_update_self (V9_eq m c) _ _

def pdats : (p : Fin 4) → (c : Dev nD) → Dat τ (Elt F) Unit ℕ (UR sig nD τ) ℕ (cfgs p) c
  | ⟨0, _⟩ => fun c => dat0 (E3 m) c
  | ⟨1, _⟩ => fun c => dat1 (E5 m) c
  | ⟨2, _⟩ => fun c => dat2 (E7 m) c
  | ⟨3, _⟩ => fun c => dat3 (E9 m) c

abbrev 𝒱₀ : Variants := Variants.none
abbrev L : GSem nD τ sig → Finset Unit := fun _ => ∅
abbrev lv : GSem nD τ sig → Unit → ℕ := fun _ _ => 0
abbrev R (c : Dev nD) : sProp 𝕄 := iprop((∃ r, prngReg c r) ∗ ∃ W, owes (c : Thread nD τ) (0 : CellTallies nD τ sig Unit) W)

/-- What core `c` holds between two items of the program: the program's arrays at `V`, and nothing owed. -/
private abbrev St (V : Valuation τ sig (Elt F)) (c : Dev nD) : sProp 𝕄 := iprop(StableHlo.held (c : Thread nD τ) (Pipeline.ucRefs τ sig) V ∗ R c)

/-- Equal contents give the same thread state. -/
private theorem link {V V' : Valuation τ sig (Elt F)} (h : V = V') (c : Dev nD) : St V c ⊢ St V' c := h ▸ .rfl

section Region

variable {p : Fin 4} (lw : Pipeline.LaunchFacts (nD := nD) (τ := τ) cfgs p) (Vi Vo : Dev nD → Valuation τ sig (Elt F))
  (hb : ∀ c, BodyObligation (pdats m p c) (defs₀ (F := F)) 𝒱₀ () Set.univ)
  (hq : ∀ c w, (pdats m p c).q w = fullShare) (hz : ∀ c t, (pdats m p c).owed t = 0) (hr : ∀ c x, x ∈ (pdats m p c).recorded 0)
  (hA : ∀ c w, (pdats m p c).A w = Vi c (Pipeline.arrRef (cfgs p).spec w))
  (wo : Fin (cfgs p).W)
  (hio : ∀ w, w ≠ wo → ((cfgs p).win w).isOut = false ∧ Pipeline.arrRef (cfgs p).spec w ≠ Pipeline.arrRef (cfgs p).spec wo)
  (hVo : ∀ c, Vo c = Function.update (Vi c) (Pipeline.arrRef (cfgs p).spec wo) ((pdats m p c).arrAt wo (cfgs p).N))
  (hi : ∀ c, Pipeline.ΦA (cfgs p).spec c ⊢ (pdats m p c).Φ 0)
  (he : ∀ c, (pdats m p c).Φ (Fin.last _) ⊢ Pipeline.ΦA (cfgs p).spec c)

include hA hio hVo in
/-- Only window `wo` is an output, so the arrays end at `Vi` updated at `wo`'s array. -/
private theorem arrAt_last (c : Dev nD) (w : Fin (cfgs p).W) :
    (pdats m p c).arrAt w (cfgs p).N = Vo c (Pipeline.arrRef (cfgs p).spec w) := by
  rw [hVo]
  by_cases h : w = wo
  · subst h; exact (Function.update_self (f := Vi c) _ _).symm
  · exact (((pdats m p c).arrAt_in w (hio w h).1 _).trans (hA c w)).trans
      (Function.update_of_ne (StableHlo.devRef_ne_of_ne (hio w h).2) _ _).symm

include hVo in
private theorem rest_last (c : Dev nD) (b : Ref sig .tc) (hb : b ∉ Finset.univ.image (Pipeline.arrRef (cfgs p).spec)) : Vo c b = Vi c b := by
  rw [hVo]
  exact Function.update_of_ne (StableHlo.devRef_ne_of_ne fun e => hb (Finset.mem_image.mpr ⟨wo, Finset.mem_univ _, e.symm⟩)) _ _

set_option backward.isDefEq.respectTransparency.types false in
/-- A region as a segment of the run: entered with the buffers at `Vi`, left with them at `Vo`. -/
private def reg : Pipeline.RegionSeg (pcfgs (F := F)) adm (pdats m) () defs₀ 𝒱₀ L lv p where
  win := lw.win.to₀
  block_pos := lw.block_pos
  stage_whole := lw.stage_whole
  K := PEmpty
  osem k := k.elim
  ho := Pipeline.OwnSemFacts.none _
  hbody c := (hb c).loose
  hwaits := Pipeline.hwaits_of_owed_zero _ _ _ _ L lv p hz
  pre c := St (Vi c) c
  post c := St (Vo c) c
  X c := iprop(∃ r, prngReg c r)
  Y c := iprop(∃ r, prngReg c r)
  Z c := Pipeline.unscopedRest (Ix := Unit) (Name := ℕ) (U := UR sig nD τ) (Lvl := ℕ) (cfgs p).spec c fun b => Vi c b
  hentry c := by
    rw [Pipeline.ownSems0_none]
    have hsplit := Pipeline.arrays_of_unscopedBufs (p := p) (pcfgs (F := F)) adm (pdats m) lw.win lw.arr_whole c
      ((pdats m p c).share_full (hq c)) (fun b => Vi c b) (hA c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin; rw [hz]
      icases HO with ⟨%W, HO⟩; iexists W; isplitr; · ipureintro; exact fun _ _ => Or.inl (hr c _)
      iexact HO
    isplitl [Hp]; · iexact Hp
    iexact Hrest
  hin c := by
    refine BIBase.Entails.trans ?_ (hi c)
    unfold Pipeline.ΦA
    iintro ⟨Hp, -, Hr⟩
    iframe
  hout c := by
    rw [Pipeline.ownSems0_none]
    refine BIBase.Entails.trans (he c) ?_
    unfold Pipeline.ΦA
    iintro ⟨Hr, Hp⟩
    iframe; iempintro
  hexit c := by
    have hjoin := Pipeline.unscopedBufs_of_arrays (p := p) (pcfgs (F := F)) adm (Ix := Unit) (Name := ℕ) (U := UR sig nD τ) (Lvl := ℕ)
      lw.win lw.arr_whole c (pdats m) ((pdats m p c).share_full (hq c))
      (fun b => Vi c b) (fun b => Vo c b) ((pdats m p c).arrAt · (cfgs p).N) (arrAt_last m Vi Vo hA wo hio hVo c) (rest_last m Vi Vo wo hVo c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin; rw [hz]
    icases HO with ⟨%W, -, HO⟩; iexists W; iexact HO

end Region

def reg0 := reg m launch0 (V3 m) (U4 m) (body_obligation0 (E3 m)) (fun _ _ => rfl) (fun _ _ => rfl) (fun _ _ => trivial) (A_eq0 (E3 m)) 3 (by decide) (fun _ => rfl) (fun _ => .rfl) (fun _ => .rfl)
def reg1 := reg m launch1 (U5 m) (U6 m) (body_obligation1 (E5 m)) (fun _ _ => rfl) (fun _ _ => rfl) (fun _ _ => trivial) (A_eq1 (E5 m)) 3 (by decide) (fun _ => rfl) (fun _ => .rfl) (fun _ => .rfl)
def reg2 := reg m launch2 (U7 m) (U8 m) (body_obligation2 (E7 m)) (fun _ _ => rfl) (fun _ _ => rfl) (fun _ _ => trivial) (A_eq2 (E7 m)) 3 (by decide) (fun _ => rfl) (fun _ => .rfl) (fun _ => .rfl)
def reg3 := reg m launch3 (U9 m) (U10 m) (body_obligation3 (E9 m)) (fun _ _ => rfl) (fun _ _ => rfl) (fun _ _ => trivial) (A_eq3 (E9 m)) 4 (by decide) (fun _ => rfl) (hin3 (E9 m)) (hout3 (E9 m))

private abbrev u₀ := initOf (Pipeline.cells cfgs cellOf_inj) (Pipeline.launchToks cfgs cellOf_inj)

set_option backward.isDefEq.respectTransparency.types false in
theorem run : θ_run defs (onTc (τ := τ) (main (F := F))) ⟨m, fun _ => 0, ρ⟩ fun r => ∀ c : Dev nD, Post m c (o10 m c) r.2 := by
  refine (θ_run defs _ _).mono (fun r h c => ⟨(h c).1.trans ?hres, (h c).2⟩)
    (run_cond m emb₁ () 𝒱₀ L lv (fun _ _ => rfl) ρ (outs m) (pdats m) 0 (fun _ => iprop(emp)) u₀ ?hu (fun _ c => R c) ?hE0
      (reg0 m) (reg1 m) (reg2 m) (reg3 m) fun c => ⟨.rfl, .rfl, .rfl, .rfl, link (V4_eq m c).symm c, link (V5_eq m c) c,
        link (V6_eq m c).symm c, link (V7_eq m c) c, link (V8_eq m c).symm c, link (V9_eq m c) c,
        (link (V10_eq m c).symm c).trans (sep_mono .rfl ?hE4)⟩)
  case hres => rw [V10_eq]; exact Function.update_self (f := U9 m c) _ _
  case hu =>
    iintro Hu; imodintro
    isplitl [Hu]
    · iapply (show (ownU u₀ : sProp 𝕄) ⊢ BI.own (emb₁ u₀) from .rfl)
      iexact Hu
    iapply (show (BI.emp : sProp 𝕄) ⊢ bigSep Finset.univ (fun _ : Dev nD => (BI.emp : sProp 𝕄)) from by rw [BI.bigSep_emp_const])
    iempintro
  case hE0 =>
    refine Pipeline.initEach L lv fun c => ?_
    iintro ⟨⟨-, HO, -, Hp, -⟩, -⟩
    imodintro
    isplitl [Hp]; · iexists _; iexact Hp
    iexists ∅; iexact HO
  case hE4 =>
    iintro ⟨-, HO⟩
    iexact HO

end Cert.KernelIdeal.Hand

end
-- ==== Proof.LibNary3.lean ====
import Idealize.ShloMosaic.Lib.StableHlo.Run

namespace Idealize.ShloMosaic.StableHlo

variable {τ : Topo} {sig : RefSig} {Val : EltTy → Type}
variable {x a b y : Ref sig .tc}

/-- A three-operand operation's result at the family of the three operands' own contents. -/
theorem nary3_result
    (f : ((k : Fin 3) → ((![x, a, b] : Fin 3 → Ref sig .tc) k).ty.Contents Val) → y.ty.Contents Val) (hxs hy)
    (F : Valuation τ sig Val) :
    (nary (τ := τ) ![x, a, b] y f hxs hy).result F (Proc.devRef .tc y)
      = f (Fin.cons (F (Proc.devRef .tc x)) (Fin.cons (F (Proc.devRef .tc a)) (Fin.cons (F (Proc.devRef .tc b)) (fun i => i.elim0)))) := by
  rw [nary_result]; congr 1; funext k; fin_cases k <;> rfl

/-- The same, matching any reference before it is compared with the one written: a rewrite rule for one simplification pass. -/
theorem nary3_result'
    (f : ((k : Fin 3) → ((![x, a, b] : Fin 3 → Ref sig .tc) k).ty.Contents Val) → y.ty.Contents Val) (hxs hy)
    (F : Valuation τ sig Val) :
    (nary (τ := τ) ![x, a, b] y f hxs hy).result F (no_index (Proc.devRef .tc y))
      = f (Fin.cons (F (Proc.devRef .tc x)) (Fin.cons (F (Proc.devRef .tc a)) (Fin.cons (F (Proc.devRef .tc b)) (fun i => i.elim0)))) :=
  nary3_result f hxs hy F

/-- The same for a function of the three contents. -/
theorem nary3_result_app
    (g : x.ty.Contents Val → a.ty.Contents Val → b.ty.Contents Val → y.ty.Contents Val) (hxs hy)
    (F : Valuation τ sig Val) :
    (nary (τ := τ) ![x, a, b] y (fun u => g (u 0) (u 1) (u 2)) hxs hy).result F (Proc.devRef .tc y)
      = g (F (Proc.devRef .tc x)) (F (Proc.devRef .tc a)) (F (Proc.devRef .tc b)) := by
  rw [nary_result]; rfl

end Idealize.ShloMosaic.StableHlo
-- ==== Proof.KI.HostK.lean ====
import proofs.«431499_j78546361909690_1_alg».proof.Proof.Gen.KernelIdeal.Regions
import Idealize.ShloMosaic.Lib.StableHlo.Run
import Idealize.ShloMosaic.Lib.ValueIdx
import Idealize.ShloMosaic.Lib.Pipeline.Value
import proofs.«431499_j78546361909690_1_alg».proof.Proof.LibNary3

noncomputable section

namespace Cert.KernelIdeal.Hand

open Cert.KernelIdeal Cert.KernelIdeal.Gen
open Idealize.ShloMosaic Idealize.ShloMosaic.TcCoe Idealize.ShloMosaic.ValueIdx Idealize.SL.Sem Idealize.ShloMosaic.StableHlo

variable {F : FTy → Type} [FloatOps F]

/-- The norm column max (deg, 1) ^ (-1/2), deg counting the edges that arrive at each node. -/
def normK (dst : IVec S800000 32) : FVec F S50000x1 .f32 :=
  broadcastInDim S50000x1 ![0] Gen.bcast_S50000_S50000x1_0
    (Host.powf
      (select
        (cmpf (F := F) .olt
          (Host.scatterAdd scatter_S50000_S800000x1_S800000_n_0_0_1
            (broadcastInDim S50000 ![] Gen.bcast_S_S50000 (constant (F := F) S_ .f32 0x00000000#32))
            (broadcastInDim S800000x1 ![0] Gen.bcast_S800000_S800000x1_0 dst)
            (broadcastInDim S800000 ![] Gen.bcast_S_S800000 (constant (F := F) S_ .f32 0x3F800000#32)))
          (broadcastInDim S50000 ![] Gen.bcast_S_S50000 (constant (F := F) S_ .f32 0x3F800000#32)))
        (broadcastInDim S50000 ![] Gen.bcast_S_S50000 (id (constant (F := F) S_ .f32 0x3F800000#32)))
        (Host.scatterAdd scatter_S50000_S800000x1_S800000_n_0_0_1
          (broadcastInDim S50000 ![] Gen.bcast_S_S50000 (constant (F := F) S_ .f32 0x00000000#32))
          (broadcastInDim S800000x1 ![0] Gen.bcast_S800000_S800000x1_0 dst)
          (broadcastInDim S800000 ![] Gen.bcast_S_S800000 (constant (F := F) S_ .f32 0x3F800000#32))))
      (broadcastInDim S50000 ![] Gen.bcast_S_S50000 (constant (F := F) S_ .f32 0xBF000000#32)))

/-- One hop: rows scaled by the norm column, every edge's source row added at its destination, scaled again. -/
def hopK (a : FVec F S50000x128 .f32) (nrm : FVec F S50000x1 .f32) (src dst : IVec S800000 32) : FVec F S50000x128 .f32 :=
  mulf
    (Host.scatterAdd scatter_S50000x128_S800000x1_S800000x128_1_0_0_1
      (broadcastInDim S50000x128 ![] Gen.bcast_S_S50000x128 (constant (F := F) S_ .f32 0x00000000#32))
      (broadcastInDim S800000x1 ![0] Gen.bcast_S800000_S800000x1_0 dst)
      (Host.gather gather_S50000x128_S800000x1_S800000x128_1_0_n_n_0_1_1128
        (mulf a (broadcastInDim S50000x128 ![0, 1] Gen.bcast_S50000x1_S50000x128_0_1 nrm))
        (broadcastInDim S800000x1 ![0] Gen.bcast_S800000_S800000x1_0
          (select (cmpi .slt src (broadcastInDim S800000 ![] Gen.bcast_S_S800000 (constantI S_ 32 0#32)))
            (addi src (broadcastInDim S800000 ![] Gen.bcast_S_S800000 (constantI S_ 32 50000#32)))
            src))))
    (broadcastInDim S50000x128 ![0, 1] Gen.bcast_S50000x1_S50000x128_0_1 nrm)

/-- A layer's features: h beside hop h and hop (hop h), 384 columns. -/
def featsK (h : FVec F S50000x128 .f32) (nrm : FVec F S50000x1 .f32) (src dst : IVec S800000 32) : FVec F S50000x384 .f32 :=
  concatenate S50000x384 1
    [⟨S50000x128, h⟩, ⟨S50000x128, hopK h nrm src dst⟩, ⟨S50000x128, hopK (hopK h nrm src dst) nrm src dst⟩]
    Gen.concatenates_S50000x128_S50000x128_S50000x128_S50000x384_d1

/-- Three 128-column blocks side by side. -/
abbrev cat3 (p q r : FVec F S50000x128 .f32) : FVec F S50000x384 .f32 :=
  concatenate S50000x384 1 [⟨S50000x128, p⟩, ⟨S50000x128, q⟩, ⟨S50000x128, r⟩]
    Gen.concatenates_S50000x128_S50000x128_S50000x128_S50000x384_d1

section Stretches
variable (W : Valuation τ sig (Elt F))

/-- The stretch before a layer computes h beside hop h and hop (hop h), whatever the buffers held before it. -/
theorem hostOps0_2_feats :
    after hostOps0_2 W main_v38
      = featsK (F := F) (W main_arg0) (after hostOps0_2 W main_v9)
          (W main_arg1) (W main_arg2) := by
  dsimp only [hostOps0_2]
  simp only [after_cons, after_nil]
  rw [nary3_result_app (Val := Elt F) (x := main_arg0) (a := main_v23) (b := main_v37) (y := main_v38) (g := cat3 (F := F))]
  after_results_simp
  rfl

theorem hostOps1_feats :
    after hostOps1 W main_v68
      = featsK (F := F) (W main_v39) (W main_v9)
          (W main_arg1) (W main_arg2) := by
  dsimp only [hostOps1]
  simp only [after_cons, after_nil]
  rw [nary3_result_app (Val := Elt F) (x := main_v39) (a := main_v53) (b := main_v67) (y := main_v68) (g := cat3 (F := F))]
  after_results_simp
  rfl

theorem hostOps2_feats :
    after hostOps2 W main_v98
      = featsK (F := F) (W main_v69) (W main_v9)
          (W main_arg1) (W main_arg2) := by
  dsimp only [hostOps2]
  simp only [after_cons, after_nil]
  rw [nary3_result_app (Val := Elt F) (x := main_v69) (a := main_v83) (b := main_v97) (y := main_v98) (g := cat3 (F := F))]
  after_results_simp
  rfl

end Stretches

variable (m : (ℓ : Loc nD τ sig) → Buf (Elt F) ℓ) (outs : Outs (F := F)) (c : Dev nD)

/-- What a reference holds at launch. -/
abbrev launched (r : Ref sig .tc) : Buf (Elt F) ((c : Thread nD τ).loc r) := m ((c : Thread nD τ).loc r)

section Args
variable (r : Ref sig .tc) (h0 : r ∉ hostOps0_W := by decide) (h1 : r ∉ hostOps0_1_W := by decide)
  (h2 : r ∉ hostOps0_2_W := by decide) (h3 : r ∉ [main_v39] := by decide) (h4 : r ∉ hostOps1_W := by decide)
  (h5 : r ∉ [main_v69] := by decide) (h6 : r ∉ hostOps2_W := by decide) (h7 : r ∉ [main_v99] := by decide)
  (h8 : r ∉ hostOps3_W := by decide)

include h0 h1
/-- A reference that no host stretch writes and no region leaves changed holds its launch contents at every point. -/
theorem V2_arg : V2 m c r = launched m c r := (V2_of m c r h1).trans <| (V1_of m c r h0).trans rfl
include h2
theorem V3_arg : V3 m c r = launched m c r := (V3_of m c r h2).trans (V2_arg m c r h0 h1)
include h3
theorem V4_arg : V4 m outs c r = launched m c r := (V4_of m outs c r h3).trans (V3_arg m c r h0 h1 h2)
include h4
theorem V5_arg : V5 m outs c r = launched m c r := (V5_of m outs c r h4).trans (V4_arg m outs c r h0 h1 h2 h3)
include h5
theorem V6_arg : V6 m outs c r = launched m c r := (V6_of m outs c r h5).trans (V5_arg m outs c r h0 h1 h2 h3 h4)
include h6
theorem V7_arg : V7 m outs c r = launched m c r := (V7_of m outs c r h6).trans (V6_arg m outs c r h0 h1 h2 h3 h4 h5)
include h7
theorem V8_arg : V8 m outs c r = launched m c r := (V8_of m outs c r h7).trans (V7_arg m outs c r h0 h1 h2 h3 h4 h5 h6)
include h8
theorem V9_arg : V9 m outs c r = launched m c r :=
  (V9_of m outs c r h8).trans (V8_arg m outs c r h0 h1 h2 h3 h4 h5 h6 h7)

end Args

theorem V3_norm : V3 m c main_v9 = normK (F := F) (launched m c main_arg2) := by
  show after hostOps0_2 (after hostOps0_1 (after hostOps0 (V0 m c))) main_v9 = _
  dsimp only [hostOps0_2, hostOps0_1, hostOps0]
  after_results
  simp only [TRef.ofBuf, TRef.toBuf, cast_eq]
  rfl

theorem V5_norm : V5 m outs c main_v9 = normK (F := F) (launched m c main_arg2) :=
  (V5_of m outs c main_v9 (by decide)).trans <| (V4_of m outs c main_v9 (by decide)).trans (V3_norm m c)

theorem V3_feats :
    V3 m c main_v38 = featsK (launched m c main_arg0) (normK (launched m c main_arg2))
      (launched m c main_arg1) (launched m c main_arg2) :=
  (hostOps0_2_feats (V2 m c)).trans (by
    rw [show after hostOps0_2 (V2 m c) main_v9 = _ from V3_norm m c,
      V2_arg m c main_arg0, V2_arg m c main_arg1, V2_arg m c main_arg2])

theorem V5_feats :
    V5 m outs c main_v68 = featsK (outs 4 main_v39 c) (normK (launched m c main_arg2))
      (launched m c main_arg1) (launched m c main_arg2) :=
  (hostOps1_feats (V4 m outs c)).trans (by
    rw [V4_arg m outs c main_arg1, V4_arg m outs c main_arg2,
      show V4 m outs c main_v9 = _ from (V4_of m outs c main_v9 (by decide)).trans (V3_norm m c),
      show V4 m outs c main_v39 = outs 4 main_v39 c from Function.update_self ..])

theorem V7_feats :
    V7 m outs c main_v98 = featsK (outs 6 main_v69 c) (normK (launched m c main_arg2))
      (launched m c main_arg1) (launched m c main_arg2) :=
  (hostOps2_feats (V6 m outs c)).trans (by
    rw [V6_arg m outs c main_arg1, V6_arg m outs c main_arg2,
      show V6 m outs c main_v9 = _ from (V6_of m outs c main_v9 (by decide)).trans (V5_norm m outs c),
      show V6 m outs c main_v69 = outs 6 main_v69 c from Function.update_self ..])

/-- The last stretch reshapes the graph ids to a column: row n of the column is entry n of the vector. -/
theorem V9_gid :
    (V9 m outs c main_v100 : S50000x1.Idx → BitVec 32) = fun i => launched m c main_arg3 (ix1 (i 0)) := by
  funext i
  obtain ⟨n, z, rfl⟩ : ∃ (n : Fin 50000) (z : Fin 1), i = ix2 n z := ⟨i 0, i 1, eq_ix2 i⟩
  obtain rfl : z = 0 := Subsingleton.elim _ _
  show after hostOps3 (V8 m outs c) main_v100 _ = _
  dsimp only [hostOps3]
  after_results
  rw [V8_arg m outs c main_arg3]
  exact shapeCast_apply (s := S50000) (t := S50000x1) _ _ _ _ (by
    rw [Shape.rowMajor_val_one, Shape.rowMajor_val_two]
    show n.val = n.val * 1 + 0
    omega)

theorem V9_h : V9 m outs c main_v99 = outs 8 main_v99 c :=
  (V9_of m outs c main_v99 (by decide)).trans (Function.update_self ..)

end Cert.KernelIdeal.Hand

end
-- ==== Proof.LibPlainDot.lean ====
import Idealize.ShloMosaic.PureOps.Ideal.Laws
import Idealize.ShloMosaic.Lib.ValueIdx

noncomputable section

namespace Cert.Lib.PlainDot

open Idealize.ShloMosaic Idealize.ShloMosaic.ValueIdx

variable (M K N : Nat) {φ₁ φ₂ : FTy} (prec : Option ContractPrecision) (sched : HostSchedule)
  (lhs : FVec Ideal ⟨2, ![M, K]⟩ φ₁) (rhs : FVec Ideal ⟨2, ![K, N]⟩ φ₂) (r : Fin M) (c : Fin N)

/-- A plain product contracts one axis: indexed by that coordinate k, its sum reads the operands at (r, k) and (k, c). -/
theorem plain_sum :
    (∑ q : (DotDims.plain M K N).contr.Idx,
        lhs ((DotDims.plain M K N).lhsIdx (ix2 r c) q) * rhs ((DotDims.plain M K N).rhsIdx (ix2 r c) q))
      = ∑ k : Fin K, (lhs (ix2 r k) : EReal) * (rhs (ix2 k c) : EReal) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 r c) ((contrEquiv1 (DotDims.plain M K N) K rfl rfl).symm k) = ix2 r k :=
    funext fun a => Fin.ext (by match a with | ⟨0, _⟩ => rfl | ⟨1, _⟩ => exact hk)
  have er : (DotDims.plain M K N).rhsIdx (ix2 r c) ((contrEquiv1 (DotDims.plain M K N) K rfl rfl).symm k) = ix2 k c :=
    funext fun a => Fin.ext (by match a with | ⟨0, _⟩ => exact hk | ⟨1, _⟩ => rfl)
  rw [el, er]

theorem matmul_plain_zero_ix2 :
    FloatOps.matmul (DotDims.plain M K N) prec lhs rhs (constant ⟨2, ![M, N]⟩ .f32 0x00000000#32) (ix2 r c)
      = ∑ k : Fin K, (lhs (ix2 r k) : EReal) * (rhs (ix2 k c) : EReal) :=
  (Ideal.matmul_constant_zero_apply _ prec lhs rhs _).trans (plain_sum M K N lhs rhs r c)

theorem dotGeneral_plain_ix2 :
    FloatOps.dotGeneral (DotDims.plain M K N) prec sched lhs rhs (ix2 r c)
      = ∑ k : Fin K, (lhs (ix2 r k) : EReal) * (rhs (ix2 k c) : EReal) :=
  (Ideal.dotGeneral_apply _ prec sched lhs rhs _).trans (plain_sum M K N lhs rhs r c)

end Cert.Lib.PlainDot

end
-- ==== Proof.KI.LinPay0.lean ====
import proofs.«431499_j78546361909690_1_alg».proof.Proof.Gen.KernelIdeal.Skeleton
import proofs.«431499_j78546361909690_1_alg».proof.Proof.LibPlainDot
import Idealize.ShloMosaic.Lib.ValueIdx
import Idealize.ShloMosaic.Lib.ValueLayout
import Idealize.ShloMosaic.PureOps.Ideal.Laws

noncomputable section

namespace Cert.KernelIdeal.Hand

open Cert.KernelIdeal Cert.KernelIdeal.Gen Idealize.ShloMosaic Idealize.ShloMosaic.ValueIdx

/-- At the ideal values the casts are identities, so only the contraction sum, the bias row and the maximum with 0 remain. -/
theorem lin0_pay_ix2 (x0 : Vec Ideal S5000x384 .f32) (x1 : Vec Ideal S384x128 .f32) (x2 : Vec Ideal S128 .f32)
    (p : Fin 5000) (q : Fin 128) :
    k0_pay1 (F := Ideal) x0 x1 x2 (ix2 p q)
      = max ((∑ k : Fin 384, x0 (ix2 p k) * x1 (ix2 k q)) + x2 (ix1 q)) 0 := by
  unfold k0_pay1
  refine (maximumf_apply _ _ (ix2 p q)).trans (congrArg₂ (fun a b : EReal => max a b) ?_ Ideal.ofBits_zero_f32)
  refine (addf_apply _ _ (ix2 p q)).trans (congrArg₂ (fun a b : EReal => a + b) ?_
    ((broadcastTo_1b_ab_apply _ Facts₀.broadcasts_S1x128_S5000x128 p q).trans (shapeCast_a_1a_apply x2 Facts₀.shapeCasts_S128_S1x128 (0 : Fin 1) q)))
  refine (Cert.Lib.PlainDot.matmul_plain_zero_ix2 5000 384 128 none _ _ p q).trans ?_
  rw [shapeCast_self]
  rfl

end Cert.KernelIdeal.Hand

end
-- ==== Proof.Spec.lean ====
import Idealize.ShloMosaic.PureOps.Ideal.Laws
import Idealize.ShloMosaic.Lib.ValueIdx

noncomputable section

namespace Cert.Spec

open Idealize.ShloMosaic Idealize.ShloMosaic.ValueIdx

section Lin
variable (f : (⟨2, ![50000, 384]⟩ : Shape).Idx → EReal) (w : (⟨2, ![384, 128]⟩ : Shape).Idx → EReal)
  (b : (⟨1, ![128]⟩ : Shape).Idx → EReal)

/-- One entry of relu (f · W + b). -/
def linAt (r : Fin 50000) (c : Fin 128) : EReal :=
  max ((∑ k : Fin 384, f (ix2 r k) * w (ix2 k c)) + b (ix1 c)) 0

def linSpec : (⟨2, ![50000, 128]⟩ : Shape).Idx → EReal :=
  fun i => linAt f w b (i 0) (i 1)

theorem linSpec_ix2 (r : Fin 50000) (c : Fin 128) : linSpec f w b (ix2 r c) = linAt f w b r c := rfl

end Lin

variable (h : (⟨2, ![50000, 128]⟩ : Shape).Idx → EReal) (gid : (⟨2, ![50000, 1]⟩ : Shape).Idx → BitVec 32)
  (wc : (⟨2, ![128, 10]⟩ : Shape).Idx → EReal) (bc : (⟨1, ![10]⟩ : Shape).Idx → EReal) (g : Fin 128)

/-- Column d summed over the rows whose graph id word is g; a row whose word is no graph's adds nothing anywhere. -/
def segSum (d : Fin 128) : EReal :=
  ∑ n : Fin 50000, if gid (ix2 n 0) = BitVec.ofNat 32 g.val then h (ix2 n d) else 0

/-- The number of rows whose graph id word is g. -/
def segCnt : EReal :=
  ∑ n : Fin 50000, if gid (ix2 n 0) = BitVec.ofNat 32 g.val then (1 : EReal) else 0

/-- One entry of the classifier applied to the mean of graph g's rows (the sum over max count 1). -/
def readoutAt (j : Fin 10) : EReal :=
  (∑ d : Fin 128, Ideal.div (segSum h gid g d) (max (segCnt gid g) 1) * wc (ix2 d j)) + bc (ix1 j)

def readoutSpec : (⟨2, ![128, 10]⟩ : Shape).Idx → EReal :=
  fun i => readoutAt h gid wc bc (i 0) (i 1)

theorem readoutSpec_ix2 (j : Fin 10) : readoutSpec h gid wc bc (ix2 g j) = readoutAt h gid wc bc g j := rfl

end Cert.Spec

end
-- ==== Proof.KI.LinValue0.lean ====
import proofs.«431499_j78546361909690_1_alg».proof.Proof.KI.Lin0
import proofs.«431499_j78546361909690_1_alg».proof.Proof.KI.LinPay0
import proofs.«431499_j78546361909690_1_alg».proof.Proof.Spec
import Idealize.ShloMosaic.Lib.Pipeline.Value

noncomputable section

namespace Cert.KernelIdeal.Hand

open Cert.KernelIdeal Cert.KernelIdeal.Gen
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem lin0_offsets2 : (![0, 0] : Fin 2 → Nat) = fun _ => 0 := funext fun a => by fin_cases a <;> rfl
theorem lin0_offsets1 : (![0] : Fin 1 → Nat) = fun _ => 0 := funext fun a => by fin_cases a <;> rfl

/-- With the blocks placed by `e0 … e3` (feature and output at row 5000 T, weights and bias whole) the block's arithmetic is the layer there. -/
theorem linValue_block (f : S50000x384.Idx → EReal) (w : S384x128.Idx → EReal) (b : S128.Idx → EReal) (T : ℕ)
    (i0 i1 : Fin 2 → ℕ) (i2 : Fin 1 → ℕ) (i3 : Fin 2 → ℕ)
    (hi : i0 0 = T ∧ i0 1 = 0 ∧ i1 0 = 0 ∧ i1 1 = 0 ∧ i2 0 = 0 ∧ i3 0 = T ∧ i3 1 = 0)
    (e0 : S5000x384.Idx → S50000x384.Idx) (e1 : S384x128.Idx → S384x128.Idx) (e2 : S128.Idx → S128.Idx)
    (e3 : S5000x128.Idx → S50000x128.Idx)
    (h0 : ∀ j, (e0 j 0).val = i0 0 * 5000 + 1 * (j 0).val ∧ (e0 j 1).val = i0 1 * 384 + 1 * (j 1).val)
    (h1 : ∀ j, (e1 j 0).val = i1 0 * 384 + 1 * (j 0).val ∧ (e1 j 1).val = i1 1 * 128 + 1 * (j 1).val)
    (h2 : ∀ j, (e2 j 0).val = i2 0 * 128 + 1 * (j 0).val)
    (h3 : ∀ j, (e3 j 0).val = i3 0 * 5000 + 1 * (j 0).val ∧ (e3 j 1).val = i3 1 * 128 + 1 * (j 1).val)
    (j : S5000x128.Idx) :
    out0_3 (F := Ideal) (fun x => f (e0 x)) (fun x => w (e1 x)) (fun x => b (e2 x)) j = Cert.Spec.linSpec f w b (e3 j) := by
  obtain ⟨a0, a1, b0, b1, c0, d0, d1⟩ := hi
  unfold out0_3
  rw [View.canon_unit_zero lin0_offsets2, View.ld_unit_zero lin0_offsets2, View.ld_unit_zero lin0_offsets2,
    View.ld_unit_zero lin0_offsets1]
  obtain ⟨p, q, rfl⟩ : ∃ (p : Fin 5000) (q : Fin 128), j = ix2 p q := ⟨j 0, j 1, eq_ix2 j⟩
  obtain ⟨r, hr, hj⟩ : ∃ r : Fin 50000, r.val = i3 0 * 5000 + 1 * p.val ∧ e3 (ix2 p q) = ix2 r q :=
    ⟨e3 (ix2 p q) 0, (h3 _).1, funext fun a => Fin.ext <| by
      match a with
      | ⟨0, _⟩ => rfl
      | ⟨1, _⟩ => exact (h3 _).2.trans (by show i3 1 * 128 + 1 * q.val = q.val; omega)⟩
  rw [hj, Cert.Spec.linSpec_ix2, lin0_pay_ix2]
  unfold Cert.Spec.linAt
  refine congrArg₂ (fun s u : EReal => max (s + u) 0) (Finset.sum_congr rfl fun k _ => congrArg₂ (· * ·)
    (congrArg f (funext fun a => Fin.ext ?_)) (congrArg w (funext fun a => Fin.ext ?_))) (congrArg b (funext fun a => Fin.ext ?_))
  · match a with
    | ⟨0, _⟩ => exact (h0 _).1.trans (by show i0 0 * 5000 + 1 * p.val = r.val; omega)
    | ⟨1, _⟩ => exact (h0 _).2.trans (by show i0 1 * 384 + 1 * k.val = k.val; omega)
  · match a with
    | ⟨0, _⟩ => exact (h1 _).1.trans (by show i1 0 * 384 + 1 * k.val = k.val; omega)
    | ⟨1, _⟩ => exact (h1 _).2.trans (by show i1 1 * 128 + 1 * q.val = q.val; omega)
  · match a with
    | ⟨0, _⟩ => exact (h2 _).trans (by show i2 0 * 128 + 1 * q.val = q.val; omega)

/-- Ten blocks of 5000 rows cover the 50000 rows: row r lies in block r / 5000. -/
theorem linValue_cover {N : ℕ} (hN : N = 10) (i3 : Fin N → Fin 2 → ℕ) (hi : ∀ t, i3 t 0 = t.val ∧ i3 t 1 = 0) (i : S50000x128.Idx) :
    ∃ t : Fin N, ∀ a : Fin 2, i3 t a * S5000x128.size a ≤ (i a).val ∧ (i a).val < i3 t a * S5000x128.size a + S5000x128.size a := by
  subst hN
  have h0 : (i 0).val < 50000 := (i 0).isLt
  have h1 : (i 1).val < 128 := (i 1).isLt
  refine ⟨⟨(i 0).val / 5000, by omega⟩, fun a => ?_⟩
  obtain ⟨e0, e1⟩ := hi ⟨(i 0).val / 5000, by omega⟩
  have e0' : i3 ⟨(i 0).val / 5000, by omega⟩ 0 = (i 0).val / 5000 := e0
  match a with
  | ⟨0, _⟩ =>
    show i3 ⟨(i 0).val / 5000, _⟩ 0 * 5000 ≤ (i 0).val ∧ (i 0).val < i3 ⟨(i 0).val / 5000, _⟩ 0 * 5000 + 5000
    omega
  | ⟨1, _⟩ =>
    show i3 ⟨(i 0).val / 5000, _⟩ 1 * 128 ≤ (i 1).val ∧ (i 1).val < i3 ⟨(i 0).val / 5000, _⟩ 1 * 128 + 128
    omega

theorem lin0_block_index : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 1) = 0
    ∧ win0_3.index t (0 : Fin 2) = t.val ∧ win0_3.index t (1 : Fin 2) = 0 :=
  (by decide +kernel : ∀ t : Fin grid0.N, _)

/-- Every point's block of the output is that block of the layer and the blocks cover the array, so it ends as the layer of the three input arrays. -/
theorem lin0_value (c : Dev nD) :
    ((dat0 (F := Ideal) V c).arrAt 3 cfg0.N : S50000x128.Idx → EReal)
      = Cert.Spec.linSpec (V c main_v38) (V c main_arg4) (V c main_arg5) := by
  refine (dat0 (F := Ideal) V c).arrAt_eq_of_cover 3 _ (fun t _ => ?_) fun i => ?_
  · show (cfg0.win 3).cut (grid0.coords t) ((dat0 (F := Ideal) V c).after 3 t) = _
    rw [after0_3]
    funext j
    exact linValue_block (V c main_v38) (V c main_arg4) (V c main_arg5) t.val _ _ _ _ (lin0_block_index t)
      ((cfg0.win 0).blk t).view.emb ((cfg0.win 1).blk t).view.emb ((cfg0.win 2).blk t).view.emb ((cfg0.win 3).blk t).view.emb
      (fun _ => ⟨rfl, rfl⟩) (fun _ => ⟨rfl, rfl⟩) (fun _ => rfl) (fun _ => ⟨rfl, rfl⟩) j
  · obtain ⟨t, ht⟩ := linValue_cover N_0 win0_3.index (fun t => (lin0_block_index t).2.2.2.2.2) i
    refine ⟨t, flush0_3 t, ?_⟩
    show i ∈ ((View.whole main_v39).slice (win0_3.rect t)).set
    rw [View.set_slice_whole, Rect.mem_set_unit]
    exact ht

end Cert.KernelIdeal.Hand

end
-- ==== Proof.KI.LinValue1.lean ====
import proofs.«431499_j78546361909690_1_alg».proof.Proof.KI.Lin1
import proofs.«431499_j78546361909690_1_alg».proof.Proof.KI.LinValue0

noncomputable section

namespace Cert.KernelIdeal.Hand

open Cert.KernelIdeal Cert.KernelIdeal.Gen
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem lin1_block_index : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 1) = 0
    ∧ win1_3.index t (0 : Fin 2) = t.val ∧ win1_3.index t (1 : Fin 2) = 0 :=
  (by decide +kernel : ∀ t : Fin grid1.N, _)

theorem lin1_value (c : Dev nD) :
    ((dat1 (F := Ideal) V c).arrAt 3 cfg1.N : S50000x128.Idx → EReal)
      = Cert.Spec.linSpec (V c main_v68) (V c main_arg6) (V c main_arg7) := by
  refine (dat1 (F := Ideal) V c).arrAt_eq_of_cover 3 _ (fun t _ => ?_) fun i => ?_
  · show (cfg1.win 3).cut (grid1.coords t) ((dat1 (F := Ideal) V c).after 3 t) = _
    rw [after1_3]
    funext j
    exact linValue_block (V c main_v68) (V c main_arg6) (V c main_arg7) t.val _ _ _ _ (lin1_block_index t)
      ((cfg1.win 0).blk t).view.emb ((cfg1.win 1).blk t).view.emb ((cfg1.win 2).blk t).view.emb ((cfg1.win 3).blk t).view.emb
      (fun _ => ⟨rfl, rfl⟩) (fun _ => ⟨rfl, rfl⟩) (fun _ => rfl) (fun _ => ⟨rfl, rfl⟩) j
  · obtain ⟨t, ht⟩ := linValue_cover N_1 win1_3.index (fun t => (lin1_block_index t).2.2.2.2.2) i
    refine ⟨t, flush1_3 t, ?_⟩
    show i ∈ ((View.whole main_v69).slice (win1_3.rect t)).set
    rw [View.set_slice_whole, Rect.mem_set_unit]
    exact ht

end Cert.KernelIdeal.Hand

end
-- ==== Proof.KI.LinValue2.lean ====
import proofs.«431499_j78546361909690_1_alg».proof.Proof.KI.Lin2
import proofs.«431499_j78546361909690_1_alg».proof.Proof.KI.LinValue0

noncomputable section

namespace Cert.KernelIdeal.Hand

open Cert.KernelIdeal Cert.KernelIdeal.Gen
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem lin2_block_index : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 1) = 0
    ∧ win2_3.index t (0 : Fin 2) = t.val ∧ win2_3.index t (1 : Fin 2) = 0 :=
  (by decide +kernel : ∀ t : Fin grid2.N, _)

theorem lin2_value (c : Dev nD) :
    ((dat2 (F := Ideal) V c).arrAt 3 cfg2.N : S50000x128.Idx → EReal)
      = Cert.Spec.linSpec (V c main_v98) (V c main_arg8) (V c main_arg9) := by
  refine (dat2 (F := Ideal) V c).arrAt_eq_of_cover 3 _ (fun t _ => ?_) fun i => ?_
  · show (cfg2.win 3).cut (grid2.coords t) ((dat2 (F := Ideal) V c).after 3 t) = _
    rw [after2_3]
    funext j
    exact linValue_block (V c main_v98) (V c main_arg8) (V c main_arg9) t.val _ _ _ _ (lin2_block_index t)
      ((cfg2.win 0).blk t).view.emb ((cfg2.win 1).blk t).view.emb ((cfg2.win 2).blk t).view.emb ((cfg2.win 3).blk t).view.emb
      (fun _ => ⟨rfl, rfl⟩) (fun _ => ⟨rfl, rfl⟩) (fun _ => rfl) (fun _ => ⟨rfl, rfl⟩) j
  · obtain ⟨t, ht⟩ := linValue_cover N_2 win2_3.index (fun t => (lin2_block_index t).2.2.2.2.2) i
    refine ⟨t, flush2_3 t, ?_⟩
    show i ∈ ((View.whole main_v99).slice (win2_3.rect t)).set
    rw [View.set_slice_whole, Rect.mem_set_unit]
    exact ht

end Cert.KernelIdeal.Hand

end
-- ==== Proof.KI.ReadoutPieces.lean ====
import proofs.«431499_j78546361909690_1_alg».proof.Proof.KI.Readout
import Idealize.ShloMosaic.Lib.Pipeline.Value
import Idealize.ShloMosaic.Lib.Tactic

noncomputable section

namespace Cert.KernelIdeal.Hand

open Cert.KernelIdeal Cert.KernelIdeal.Gen
open Idealize.ShloMosaic Idealize.ShloMosaic.TcCoe Idealize.ShloMosaic.Tactic

variable {F : FTy → Type} [FloatOps F]

theorem offs3_zero2 : (![0, 0] : Fin 2 → Nat) = fun _ => 0 := funext fun a => by fin_cases a <;> rfl
theorem offs3_zero1 : (![0] : Fin 1 → Nat) = fun _ => 0 := funext fun a => by fin_cases a <;> rfl

section Whole
variable {Val : EltTy → Type} [∀ e, Nonempty (Val e)] {sz : Fin 2 → ℕ} {e : EltTy}
  (inb : ∀ a, ![0, 0] a + sz a ≤ sz a) (w : (⟨2, sz⟩ : Shape).Idx → Val e)

-- Through the whole of a matrix a load reads the contents, and the last store leaves its payload.
theorem ld_whole2 : View.ld w (Rect.unit ![0, 0] sz inb) = w :=
  View.ld_unit_zero offs3_zero2 inb w

theorem canon_whole2 (L : List (View.Piece Val ⟨2, sz⟩ e)) :
    View.canon (⟨Rect.unit ![0, 0] sz inb, w⟩ :: L) = w :=
  View.canon_cons_unit_zero offs3_zero2 inb w L

theorem readCov_whole2 {sig : RefSig} {κ : Kind} {sp : Space} (v : View sig κ sp ⟨2, sz⟩ e) :
    v.readCov [⟨Rect.unit ![0, 0] sz inb, w⟩] (Rect.unit ![0, 0] sz inb).toLoadRect = w :=
  View.readCov_unit_zero v offs3_zero2 inb w

end Whole

section Steps
variable (V : (c : Dev nD) → (b : Ref sig .tc) → Buf (Elt F) ((c : Thread nD τ).loc b)) (c : Dev nD) (t : Fin cfg3.N)

-- The first point clears the sums and counts, then adds its block's share to the cleared values.
theorem acc3_first (h0 : t.val = 0) : (outsAt3 V c t.val t.isLt).2
    = (k3_pay4 (iblk3 V c 1 t) (iblk3 V c 0 t) k3_pay1, k3_pay5 (iblk3 V c 1 t) k3_pay2) := by
  rw [outsAt3_A V c t h0 (by omega)]
  refine congrArg₂ Prod.mk ?_ ?_
  · unfold sout3_A_0
    rw [View.read_writes_eq_canon _ _ _ fun y => scover3_A_0 (y := y) ..]
    unfold kernelRun3_A; sl_unfold_words
    simp only [canon_whole2, readCov_whole2, ld_whole2, View.readAt_eq_ld, Memref.IsWhole.read_unread]
  · unfold sout3_A_1
    rw [View.read_writes_eq_canon _ _ _ fun y => scover3_A_1 (y := y) ..]
    unfold kernelRun3_A; sl_unfold_words
    simp only [canon_whole2, readCov_whole2, ld_whole2, View.readAt_eq_ld, Memref.IsWhole.read_unread]

-- A later point adds its block's share to what the point before left.
theorem acc3_later (h0 : ¬t.val = 0) : (outsAt3 V c t.val t.isLt).2
    = (k3_pay4 (iblk3 V c 1 t) (iblk3 V c 0 t) (outsAt3 V c (t.val - 1) (Nat.lt_of_le_of_lt (Nat.sub_le _ _) t.isLt)).2.1,
      k3_pay5 (iblk3 V c 1 t) (outsAt3 V c (t.val - 1) (Nat.lt_of_le_of_lt (Nat.sub_le _ _) t.isLt)).2.2) := by
  by_cases h1 : t.val = 9
  · rw [outsAt3_C V c t h0 h1]
    refine congrArg₂ Prod.mk ?_ ?_
    · unfold sout3_C_0
      rw [View.read_writes_eq_canon _ _ _ fun y => scover3_C_0 (y := y) ..]
      unfold kernelRun3_C; sl_unfold_words
      simp only [canon_whole2, readCov_whole2, ld_whole2, View.readAt_eq_ld, Memref.IsWhole.read_unread,
        (Memref.isWhole_whole _).read_unread]
    · unfold sout3_C_1
      rw [View.read_writes_eq_canon _ _ _ fun y => scover3_C_1 (y := y) ..]
      unfold kernelRun3_C; sl_unfold_words
      simp only [canon_whole2, readCov_whole2, ld_whole2, View.readAt_eq_ld, Memref.IsWhole.read_unread,
        (Memref.isWhole_whole _).read_unread]
  · rw [outsAt3_B V c t h0 h1]
    refine congrArg₂ Prod.mk ?_ ?_
    · unfold sout3_B_0
      rw [View.read_writes_eq_canon _ _ _ fun y => scover3_B_0 (y := y) ..]
      unfold kernelRun3_B; sl_unfold_words
      simp only [canon_whole2, readCov_whole2, ld_whole2, View.readAt_eq_ld, Memref.IsWhole.read_unread,
        (Memref.isWhole_whole _).read_unread]
    · unfold sout3_B_1
      rw [View.read_writes_eq_canon _ _ _ fun y => scover3_B_1 (y := y) ..]
      unfold kernelRun3_B; sl_unfold_words
      simp only [canon_whole2, readCov_whole2, ld_whole2, View.readAt_eq_ld, Memref.IsWhole.read_unread,
        (Memref.isWhole_whole _).read_unread]

-- The last point's result is the classifier applied to the sums and counts as that point has updated them.
theorem out3_last (h1 : t.val = 9) : (outsAt3 V c t.val t.isLt).1
    = k3_pay6 (outsAt3 V c t.val t.isLt).2.1 (outsAt3 V c t.val t.isLt).2.2 (iblk3 V c 2 t) (iblk3 V c 3 t) := by
  rw [acc3_later V c t (by omega), outsAt3_C V c t (by omega) h1]
  unfold out3_C_4
  rw [View.read_writes_eq_canon _ _ _ fun y => cover3_C_4 (y := y) ..]
  unfold kernelRun3_C; sl_unfold_words
  simp only [canon_whole2, readCov_whole2, ld_whole2, View.readAt_eq_ld, Memref.IsWhole.read_unread,
    (Memref.isWhole_whole _).read_unread, View.ld_unit_zero (S := S10) offs3_zero1]

end Steps

end Cert.KernelIdeal.Hand

end
-- ==== Proof.LibLeftTransposedDot.lean ====
import Idealize.ShloMosaic.PureOps.Ideal.Laws
import Idealize.ShloMosaic.Lib.ValueIdx

noncomputable section

namespace Cert.Lib.LeftTransposedDot

open Idealize.ShloMosaic Idealize.ShloMosaic.ValueIdx

/-- A K×M by K×N product contracting the first axis of both operands: the left operand's transpose times the right. -/
def leftTransposed (M K N : Nat) : DotDims ⟨2, ![K, M]⟩ ⟨2, ![K, N]⟩ ⟨2, ![M, N]⟩ where
  lhsContracting := [0]
  rhsContracting := [0]
  lhsNonContracting := [1]
  rhsNonContracting := [1]
  lhsBatch := []
  rhsBatch := []
  wf := ⟨rfl, by simp, rfl, by simp, by simp, by simp, by simpa [List.finRange] using List.Perm.swap 0 1 [],
    by simpa [List.finRange] using List.Perm.swap 0 1 [], rfl, Nat.two_pos, fun b => by fin_cases b <;> rfl⟩

/-- Indexed by the one contraction coordinate k, the sum reads the operands at (k, r) and (k, c). -/
theorem matmul_leftTransposed_zero_ix2 (M K N : Nat) {φ₁ φ₂ : FTy} (prec : Option ContractPrecision)
    (lhs : FVec Ideal ⟨2, ![K, M]⟩ φ₁) (rhs : FVec Ideal ⟨2, ![K, N]⟩ φ₂) (r : Fin M) (c : Fin N) :
    FloatOps.matmul (leftTransposed M K N) prec lhs rhs (constant ⟨2, ![M, N]⟩ .f32 0x00000000#32) (ix2 r c)
      = ∑ k : Fin K, (lhs (ix2 k r) : EReal) * (rhs (ix2 k c) : EReal) := by
  rw [Ideal.matmul_constant_zero_apply, ← Equiv.sum_comp (contrEquiv1 (leftTransposed M K N) K rfl rfl).symm]
  refine Finset.sum_congr rfl fun k _ => ?_
  have hk := contrEquiv1_symm_val (leftTransposed M K N) K rfl rfl k
  have el : (leftTransposed M K N).lhsIdx (ix2 r c) ((contrEquiv1 (leftTransposed M K N) K rfl rfl).symm k) = ix2 k r :=
    funext fun a => Fin.ext (by match a with | ⟨0, _⟩ => exact hk | ⟨1, _⟩ => rfl)
  have er : (leftTransposed M K N).rhsIdx (ix2 r c) ((contrEquiv1 (leftTransposed M K N) K rfl rfl).symm k) = ix2 k c :=
    funext fun a => Fin.ext (by match a with | ⟨0, _⟩ => exact hk | ⟨1, _⟩ => rfl)
  rw [el, er]

end Cert.Lib.LeftTransposedDot

end
-- ==== Proof.KI.ReadoutPay.lean ====
import proofs.«431499_j78546361909690_1_alg».proof.Proof.Gen.KernelIdeal.Skeleton
import proofs.«431499_j78546361909690_1_alg».proof.Proof.LibPlainDot
import proofs.«431499_j78546361909690_1_alg».proof.Proof.LibLeftTransposedDot
import Idealize.ShloMosaic.Lib.ValueIdx
import Idealize.ShloMosaic.Lib.ValueLayout
import Idealize.ShloMosaic.Lib.KernelVsHost
import Idealize.ShloMosaic.Lib.IdealHost
import Idealize.ShloMosaic.Lib.Pipeline.Value

noncomputable section

namespace Cert.KernelIdeal.Hand

open Cert.KernelIdeal Cert.KernelIdeal.Gen
open Idealize.ShloMosaic Idealize.ShloMosaic.ValueIdx

theorem resetSums_apply (j : S128x128.Idx) : (k3_pay1 (F := Ideal) j : EReal) = 0 := by
  unfold k3_pay1
  exact (congrFun (shapeCast_self _ shapeCasts_S128x128_S128x128) j).trans Ideal.ofBits_zero_f32

theorem resetCounts_apply (j : S128x1.Idx) : (k3_pay2 (F := Ideal) j : EReal) = 0 := by
  unfold k3_pay2
  exact (congrFun (shapeCast_self _ shapeCasts_S128x1_S128x1) j).trans Ideal.ofBits_zero_f32

-- The equality bit of two words, widened and converted, is the indicator of their being equal.
theorem oneHotWord (a b : BitVec 32) :
    (FloatOps.sitofp (F := Ideal) .f32 ((IntOp.cmpi .eq a b).setWidth 32) : EReal) = if a = b then 1 else 0 := by
  show ((((BitVec.ofBool (a == b)).setWidth 32).toInt : ℝ) : EReal) = _
  rw [toInt_setWidth_bit]
  by_cases h : a = b
  · rw [if_pos h, beq_iff_eq.mpr h]; simp
  · rw [if_neg h, beq_eq_false_iff_ne.mpr h]; simp

-- The one-hot matrix at (r, g) is the indicator that row r's id word is g.
theorem oneHot_apply (v3 : Vec Ideal S5000x1 .i32) (r : Fin 5000) (g : Fin 128) :
    (k3_pay3 (F := Ideal) v3 (ix2 r g) : EReal) = if (v3 (ix2 r 0) : BitVec 32) = BitVec.ofNat 32 g.val then 1 else 0 := by
  refine (oneHotWord _ _).trans ?_
  rw [shapeCast_self, broadcastTo_apply v3 _ (ix2 r g) (ix2 r 0) (fun a => by match a with | ⟨0, _⟩ => rfl | ⟨1, _⟩ => rfl),
    iota_single_apply .tc S5000x128 32 1 iota_S5000x128_d1_w32 (ix2 r g)]

-- The update adds to the sum at (g, d) column d of every row of the block whose id word is g.
theorem sumsUpdate_apply (v3 : Vec Ideal S5000x1 .i32) (v11 : Vec Ideal S5000x128 .f32) (v15 : Vec Ideal S128x128 .f32)
    (g d : Fin 128) :
    (k3_pay4 (F := Ideal) v3 v11 v15 (ix2 g d) : EReal)
      = v15 (ix2 g d) + ∑ r : Fin 5000, if (v3 (ix2 r 0) : BitVec 32) = BitVec.ofNat 32 g.val then (v11 (ix2 r d) : EReal) else 0 := by
  unfold k3_pay4
  refine (congrFun (shapeCast_self _ shapeCasts_S128x128_S128x128) (ix2 g d)).trans ((addf_apply _ _ _).trans (congrArg (_ + ·) ?_))
  refine (Cert.Lib.LeftTransposedDot.matmul_leftTransposed_zero_ix2 128 5000 128 none _ _ g d).trans (Finset.sum_congr rfl fun r _ => ?_)
  exact (congrArg₂ (· * ·) (oneHot_apply v3 r g) (congrFun (shapeCast_self v11 shapeCasts_S5000x128_S5000x128) (ix2 r d))).trans (boole_mul _ _)

-- The update adds to the count of g the number of rows of the block whose id word is g.
theorem countsUpdate_apply (v3 : Vec Ideal S5000x1 .i32) (v21 : Vec Ideal S128x1 .f32) (g : Fin 128) :
    (k3_pay5 (F := Ideal) v3 v21 (ix2 g 0) : EReal)
      = v21 (ix2 g 0) + ∑ r : Fin 5000, if (v3 (ix2 r 0) : BitVec 32) = BitVec.ofNat 32 g.val then (1 : EReal) else 0 := by
  unfold k3_pay5
  refine (congrFun (shapeCast_self _ shapeCasts_S128x1_S128x1) (ix2 g 0)).trans ((addf_apply _ _ _).trans (congrArg (_ + ·) ?_))
  refine (Cert.Lib.LeftTransposedDot.matmul_leftTransposed_zero_ix2 128 5000 1 none _ _ g 0).trans (Finset.sum_congr rfl fun r _ => ?_)
  exact (congrArg₂ (· * ·) (oneHot_apply v3 r g) Ideal.ofBits_one_bf16).trans (mul_one _)

-- The result at (g, j) is the row of means of g (sums over max count 1) times column j of the weights, plus the bias at j.
theorem classifier_apply (v30 : Vec Ideal S128x128 .f32) (v31 : Vec Ideal S128x1 .f32) (v36 : Vec Ideal S128x10 .f32)
    (v40 : Vec Ideal S10 .f32) (g : Fin 128) (j : Fin 10) :
    (k3_pay6 (F := Ideal) v30 v31 v36 v40 (ix2 g j) : EReal)
      = (∑ d : Fin 128, Ideal.div (v30 (ix2 g d)) (max (v31 (ix2 g 0)) 1) * v36 (ix2 d j)) + v40 (ix1 j) := by
  unfold k3_pay6
  refine (addf_apply _ _ _).trans (congrArg₂ (· + ·) ?_ ((broadcastTo_1b_ab_apply _ broadcasts_S1x10_S128x10 g j).trans (shapeCast_a_1a_apply v40 shapeCasts_S10_S1x10 0 j)))
  refine (Cert.Lib.PlainDot.matmul_plain_zero_ix2 128 128 10 none _ _ g j).trans (Finset.sum_congr rfl fun d _ => ?_)
  refine congrArg (· * _) ((divf_apply _ _ _).trans (congrArg (Ideal.div (v30 (ix2 g d) : EReal)) ?_))
  refine (broadcastTo_apply _ broadcasts_S128x1_S128x128 (ix2 g d) (ix2 g 0)
    (fun a => by match a with | ⟨0, _⟩ => rfl | ⟨1, _⟩ => rfl)).trans ((maximumf_apply _ _ _).trans ?_)
  exact congrArg (max (v31 (ix2 g 0) : EReal)) Ideal.ofBits_one_f32

end Cert.KernelIdeal.Hand

end
-- ==== Proof.KI.ReadoutMath.lean ====
import Idealize.ShloMosaic.PureOps.Ideal.Laws

noncomputable section

namespace Cert.Pool

open Finset

variable {N : ℕ} (a : Fin N → EReal)

def entryAt (n : ℕ) : EReal := if h : n < N then a ⟨n, h⟩ else 0

theorem entryAt_of_lt (n : ℕ) (h : n < N) : entryAt a n = a ⟨n, h⟩ := dif_pos h

-- The sum of the entries below position k (positions past the end count 0).
def prefixSum (k : ℕ) : EReal := ∑ n ∈ range k, entryAt a n

theorem prefixSum_full : prefixSum a N = ∑ n, a n :=
  (Fin.sum_univ_eq_sum_range (entryAt a) N).symm.trans (sum_congr rfl fun n _ => entryAt_of_lt a n n.isLt)

-- Adding the B entries from position k on to the sum below k gives the sum below k + B.
theorem prefixSum_step (k B : ℕ) (hk : k + B ≤ N) {acc : EReal} {x : Fin B → EReal} (hacc : acc = prefixSum a k)
    (hx : ∀ (r : Fin B) (R : Fin N), R.val = k + r.val → x r = a R) : acc + ∑ r, x r = prefixSum a (k + B) := by
  unfold prefixSum
  rw [sum_range_add, ← Fin.sum_univ_eq_sum_range (fun r => entryAt a (k + r)) B, hacc]
  refine congrArg (_ + ·) (sum_congr rfl fun r _ => ?_)
  have h : k + r.val < N := by have := r.isLt; omega
  exact (hx r ⟨_, h⟩ rfl).trans (entryAt_of_lt a _ h).symm

end Cert.Pool

end
-- ==== Proof.KI.ReadoutValue.lean ====
import proofs.«431499_j78546361909690_1_alg».proof.Proof.KI.ReadoutPieces
import proofs.«431499_j78546361909690_1_alg».proof.Proof.KI.ReadoutPay
import proofs.«431499_j78546361909690_1_alg».proof.Proof.KI.ReadoutMath
import proofs.«431499_j78546361909690_1_alg».proof.Proof.Spec

noncomputable section

namespace Cert.KernelIdeal.Hand

open Cert.KernelIdeal Cert.KernelIdeal.Gen Cert.Pool
open Idealize.ShloMosaic Idealize.ShloMosaic.TcCoe Idealize.ShloMosaic.ValueIdx

variable (V : (c : Dev nD) → (b : Ref sig .tc) → Buf (Elt Ideal) ((c : Thread nD τ).loc b))

-- Point t takes block t of the rows and of the id words, and the one block of the weights, the bias and the result.
theorem readout_block_index : ∀ t : Fin cfg3.N,
    win3_0.index t (0 : Fin 2) = t.val ∧ win3_0.index t (1 : Fin 2) = 0
    ∧ win3_1.index t (0 : Fin 2) = t.val ∧ win3_1.index t (1 : Fin 2) = 0
    ∧ (∀ a, win3_2.index t a = 0) ∧ (∀ a, win3_3.index t a = 0) ∧ ∀ a, win3_4.index t a = 0 :=
  (by decide +kernel : ∀ t : Fin grid3.N, _)

section Point
variable (c : Dev nD) (t : Fin cfg3.N)

-- Row p of point t's block is row 5000 t + p of the array.
theorem readout_rows_block (p : Fin 5000) (d : Fin 128) (r : Fin 50000) (hr : r.val = 5000 * t.val + p.val) :
    iblk3 V c 0 t (ix2 p d) = V c main_v99 (ix2 r d) := by
  obtain ⟨e0, e1, -⟩ := readout_block_index t
  show V c main_v99 (((cfg3.win 0).blk t).view.emb (ix2 p d)) = _
  exact congrArg (V c main_v99) (Shape.idx_ext₂ (by show win3_0.index t (0 : Fin 2) * 5000 + 1 * p.val = r.val; omega)
    (by show win3_0.index t (1 : Fin 2) * 128 + 1 * d.val = d.val; omega))

theorem readout_ids_block (p : Fin 5000) (r : Fin 50000) (hr : r.val = 5000 * t.val + p.val) :
    iblk3 V c 1 t (ix2 p (0 : Fin 1)) = V c main_v100 (ix2 r (0 : Fin 1)) := by
  obtain ⟨-, -, e0, e1, -⟩ := readout_block_index t
  show V c main_v100 (((cfg3.win 1).blk t).view.emb (ix2 p (0 : Fin 1))) = _
  exact congrArg (V c main_v100) (Shape.idx_ext₂ (by show win3_1.index t (0 : Fin 2) * 5000 + 1 * p.val = r.val; omega)
    (by show win3_1.index t (1 : Fin 2) * 1 + 1 * 0 = 0; omega))

theorem readout_weights_block (d : Fin 128) (j : Fin 10) : iblk3 V c 2 t (ix2 d j) = V c main_arg10 (ix2 d j) :=
  show V c main_arg10 (((cfg3.win 2).blk t).view.emb (ix2 d j)) = _ from congrArg _ (funext fun a =>
    Fin.ext (win3_2.rect_emb_val_of_index_zero t a ((readout_block_index t).2.2.2.2.1 a) _))

theorem readout_bias_block (j : Fin 10) : iblk3 V c 3 t (ix1 j) = V c main_arg11 (ix1 j) :=
  show V c main_arg11 (((cfg3.win 3).blk t).view.emb (ix1 j)) = _ from congrArg _ (funext fun a =>
    Fin.ext (win3_3.rect_emb_val_of_index_zero t a ((readout_block_index t).2.2.2.2.2.1 a) _))

-- Row n's share of graph g's sum at column d, and of its count.
def rowShare (h : S50000x128.Idx → EReal) (gid : S50000x1.Idx → BitVec 32) (g d : Fin 128) (n : Fin 50000) : EReal :=
  if gid (ix2 n 0) = BitVec.ofNat 32 g.val then h (ix2 n d) else 0

def rowOne (gid : S50000x1.Idx → BitVec 32) (g : Fin 128) (n : Fin 50000) : EReal :=
  if gid (ix2 n 0) = BitVec.ofNat 32 g.val then 1 else 0

-- Point t's update takes the sum and the count of g over the rows below 5000 t to those over the rows below 5000 (t + 1).
theorem readout_acc_entry (g d : Fin 128) (s : Vec Ideal S128x128 .f32) (k : Vec Ideal S128x1 .f32)
    (hs : (s (ix2 g d) : EReal) = prefixSum (rowShare (V c main_v99) (V c main_v100) g d) (5000 * t.val))
    (hk : (k (ix2 g 0) : EReal) = prefixSum (rowOne (V c main_v100) g) (5000 * t.val)) :
    (k3_pay4 (F := Ideal) (iblk3 V c 1 t) (iblk3 V c 0 t) s (ix2 g d) : EReal)
        = prefixSum (rowShare (V c main_v99) (V c main_v100) g d) (5000 * (t.val + 1))
      ∧ (k3_pay5 (F := Ideal) (iblk3 V c 1 t) k (ix2 g 0) : EReal) = prefixSum (rowOne (V c main_v100) g) (5000 * (t.val + 1)) := by
  have ht : t.val < 10 := N_3 ▸ t.isLt
  have hT : 5000 * t.val + 5000 ≤ 50000 := by omega
  rw [Nat.mul_succ]
  refine ⟨(sumsUpdate_apply _ _ _ g d).trans (prefixSum_step _ _ _ hT hs fun r R hR => ?_),
    (countsUpdate_apply _ _ g).trans (prefixSum_step _ _ _ hT hk fun r R hR => ?_)⟩
  · rw [readout_ids_block V c t r R hR, readout_rows_block V c t r d R hR]; rfl
  · rw [readout_ids_block V c t r R hR]; rfl

end Point

-- By induction on n: after point n the sums and counts are those over the rows below 5000 (n + 1).
theorem readout_acc_after (c : Dev nD) (g d : Fin 128) : ∀ (n : ℕ) (hn : n < cfg3.N),
    ((outsAt3 V c n hn).2.1 (ix2 g d) : EReal) = prefixSum (rowShare (V c main_v99) (V c main_v100) g d) (5000 * (n + 1))
      ∧ ((outsAt3 V c n hn).2.2 (ix2 g 0) : EReal) = prefixSum (rowOne (V c main_v100) g) (5000 * (n + 1))
  | 0, hn => by
    rw [acc3_first V c ⟨0, hn⟩ rfl]
    exact readout_acc_entry V c ⟨0, hn⟩ g d _ _ ((resetSums_apply _).trans (Finset.sum_range_zero _).symm)
      ((resetCounts_apply _).trans (Finset.sum_range_zero _).symm)
  | n + 1, hn => by
    rw [acc3_later V c ⟨n + 1, hn⟩ (Nat.succ_ne_zero n)]
    exact readout_acc_entry V c ⟨n + 1, hn⟩ g d _ _ (readout_acc_after c g d n _).1 (readout_acc_after c g d n _).2

section Last
variable (c : Dev nD) (t : Fin cfg3.N)

-- After the last point the sums and counts are over all 50000 rows, so the result is the specification's.
theorem readout_output_entry (h9 : t.val = 9) (g : Fin 128) (j : Fin 10) :
    ((outsAt3 V c t.val t.isLt).1 (ix2 g j) : EReal) = Cert.Spec.readoutAt (V c main_v99) (V c main_v100) (V c main_arg10) (V c main_arg11) g j := by
  have e : 5000 * (t.val + 1) = 50000 := by omega
  refine (congrFun (out3_last V c t h9) (ix2 g j)).trans ((classifier_apply _ _ _ _ g j).trans ?_)
  unfold Cert.Spec.readoutAt
  refine congrArg₂ (· + ·) (Finset.sum_congr rfl fun d _ => ?_) (readout_bias_block V c t j)
  obtain ⟨hs, hk⟩ := readout_acc_after V c g d t.val t.isLt
  rw [hs, hk, e, prefixSum_full, prefixSum_full, readout_weights_block V c t d j]
  rfl

-- The result's block at any point is the whole result array.
theorem readout_out_emb (g : Fin 128) (j : Fin 10) : ((cfg3.win 4).blk t).view.emb (ix2 g j) = ix2 g j :=
  funext fun a => Fin.ext (win3_4.rect_emb_val_of_index_zero t a ((readout_block_index t).2.2.2.2.2.2 a) _)

-- What the last point, the only one whose result is kept, leaves is the specification's array.
theorem readout_flushed (hf : (cfg3.win 4).flush t = true) :
    (dat3 (F := Ideal) V c).flushed 4 t = ((cfg3.win 4).blk t).view.read (Elt Ideal) (Cert.Spec.readoutSpec (V c main_v99) (V c main_v100) (V c main_arg10) (V c main_arg11)) := by
  have ht : t.val < 10 := N_3 ▸ t.isLt
  have h9 : t.val = 9 := by have := (flush3_4 t).mp hf; omega
  show (cfg3.win 4).cut (grid3.coords t) ((dat3 (F := Ideal) V c).after 4 t) = _
  rw [after3_4]
  funext i
  obtain ⟨g, j, rfl⟩ : ∃ (g : Fin 128) (j : Fin 10), i = ix2 g j := ⟨i 0, i 1, eq_ix2 i⟩
  show ((outsAt3 V c t.val t.isLt).1 (ix2 g j) : EReal) = Cert.Spec.readoutSpec (V c main_v99) (V c main_v100) (V c main_arg10) (V c main_arg11) (((cfg3.win 4).blk t).view.emb (ix2 g j))
  rw [readout_out_emb]
  exact readout_output_entry V c t h9 g j

end Last

-- Every index of the result array lies in the block of point 9.
theorem readout_cover (i : S128x10.Idx) :
    ∃ t : Fin cfg3.N, (cfg3.win 4).flush t = true ∧ i ∈ ((cfg3.win 4).blk t).view.set := by
  have hq : 9 < grid3.N := by rw [N_3]; omega
  refine ⟨⟨9, hq⟩, (flush3_4 _).mpr rfl, ?_⟩
  obtain ⟨g, j, rfl⟩ : ∃ (g : Fin 128) (j : Fin 10), i = ix2 g j := ⟨i 0, i 1, eq_ix2 i⟩
  have h := ((cfg3.win 4).blk ⟨9, hq⟩).view.emb_mem_set (ix2 g j)
  rwa [readout_out_emb] at h

theorem readout_value (c : Dev nD) :
    ((dat3 (F := Ideal) V c).arrAt 4 cfg3.N : S128x10.Idx → EReal)
      = Cert.Spec.readoutSpec (V c main_v99) (V c main_v100) (V c main_arg10) (V c main_arg11) :=
  (dat3 (F := Ideal) V c).arrAt_eq_of_cover 4 _ (readout_flushed V c) readout_cover

end Cert.KernelIdeal.Hand

end
-- ==== Proof.KI.KernelValue.lean ====
import proofs.«431499_j78546361909690_1_alg».proof.Proof.KI.Run
import proofs.«431499_j78546361909690_1_alg».proof.Proof.KI.HostK
import proofs.«431499_j78546361909690_1_alg».proof.Proof.KI.LinValue0
import proofs.«431499_j78546361909690_1_alg».proof.Proof.KI.LinValue1
import proofs.«431499_j78546361909690_1_alg».proof.Proof.KI.LinValue2
import proofs.«431499_j78546361909690_1_alg».proof.Proof.KI.ReadoutValue
import proofs.«431499_j78546361909690_1_alg».proof.Proof.Spec
import Idealize.ShloMosaic.Lib.ValueIdx

noncomputable section

namespace Cert.KernelIdeal.Hand

open Cert.KernelIdeal Cert.KernelIdeal.Gen
open Idealize.ShloMosaic Idealize.ShloMosaic.TcCoe Idealize.ShloMosaic.ValueIdx Idealize.SL.Sem

variable (m : (ℓ : Loc nD τ sig) → Buf (Elt Ideal) ℓ) (c : Dev nD)

theorem outs_layer1 : outs m 4 main_v39 c = o4 m c :=
  show U4 m c main_v39 = _ from Function.update_self (f := V3 m c) _ _

theorem outs_layer2 : outs m 6 main_v69 c = o6 m c :=
  show U6 m c main_v69 = _ from Function.update_self (f := U5 m c) _ _

theorem outs_layer3 : outs m 8 main_v99 c = o8 m c :=
  show U8 m c main_v99 = _ from Function.update_self (f := U7 m c) _ _

/-- One layer on input h: relu (features (h) · w + b), the features h beside its two hops over the launched edges. -/
abbrev layerK (h : FVec Ideal S50000x128 .f32) (w : FVec Ideal S384x128 .f32) (b : FVec Ideal S128 .f32) :
    S50000x128.Idx → EReal :=
  Cert.Spec.linSpec
    (featsK (F := Ideal) h (normK (F := Ideal) (launched m c main_arg2))
      (launched m c main_arg1) (launched m c main_arg2)) w b

theorem layer1_value :
    (o4 (F := Ideal) m c : S50000x128.Idx → EReal)
      = layerK m c (launched m c main_arg0) (launched m c main_arg4)
          (launched m c main_arg5) := by
  refine (lin0_value (E3 m) c).trans ?_
  show Cert.Spec.linSpec (V3 m c main_v38) (V3 m c main_arg4) (V3 m c main_arg5) = _
  rw [V3_feats, V3_arg m c main_arg4, V3_arg m c main_arg5]

theorem layer2_value :
    (o6 (F := Ideal) m c : S50000x128.Idx → EReal)
      = layerK m c (o4 m c) (launched m c main_arg6) (launched m c main_arg7) := by
  refine (lin1_value (E5 m) c).trans ?_
  show Cert.Spec.linSpec (U5 m c main_v68) (U5 m c main_arg6) (U5 m c main_arg7) = _
  rw [← V5_eq m c, V5_feats, V5_arg m (outs m) c main_arg6, V5_arg m (outs m) c main_arg7, outs_layer1]

theorem layer3_value :
    (o8 (F := Ideal) m c : S50000x128.Idx → EReal)
      = layerK m c (o6 m c) (launched m c main_arg8) (launched m c main_arg9) := by
  refine (lin2_value (E7 m) c).trans ?_
  show Cert.Spec.linSpec (U7 m c main_v98) (U7 m c main_arg8) (U7 m c main_arg9) = _
  rw [← V7_eq m c, V7_feats, V7_arg m (outs m) c main_arg8, V7_arg m (outs m) c main_arg9, outs_layer2]

/-- Each region's value is stated at the contents it is entered from; chained, the result is one function of the arguments. -/
theorem kernel_value (c : Dev nD) :
    (o10 (F := Ideal) m c : S128x10.Idx → EReal)
      = Cert.Spec.readoutSpec
          (Cert.Spec.linSpec
            (featsK (F := Ideal)
              (Cert.Spec.linSpec
                (featsK (F := Ideal)
                  (Cert.Spec.linSpec
                    (featsK (F := Ideal) (m ((c : Thread nD τ).loc main_arg0)) (normK (F := Ideal) (m ((c : Thread nD τ).loc main_arg2)))
                      (m ((c : Thread nD τ).loc main_arg1)) (m ((c : Thread nD τ).loc main_arg2)))
                    (m ((c : Thread nD τ).loc main_arg4)) (m ((c : Thread nD τ).loc main_arg5)))
                  (normK (F := Ideal) (m ((c : Thread nD τ).loc main_arg2)))
                  (m ((c : Thread nD τ).loc main_arg1)) (m ((c : Thread nD τ).loc main_arg2)))
                (m ((c : Thread nD τ).loc main_arg6)) (m ((c : Thread nD τ).loc main_arg7)))
              (normK (F := Ideal) (m ((c : Thread nD τ).loc main_arg2)))
              (m ((c : Thread nD τ).loc main_arg1)) (m ((c : Thread nD τ).loc main_arg2)))
            (m ((c : Thread nD τ).loc main_arg8)) (m ((c : Thread nD τ).loc main_arg9)))
          (fun i => m ((c : Thread nD τ).loc main_arg3) (ix1 (i 0)))
          (m ((c : Thread nD τ).loc main_arg10)) (m ((c : Thread nD τ).loc main_arg11)) := by
  refine (readout_value (E9 m) c).trans ?_
  show Cert.Spec.readoutSpec (U9 m c main_v99) (U9 m c main_v100) (U9 m c main_arg10) (U9 m c main_arg11) = _
  rw [← V9_eq m c, V9_h, V9_arg m (outs m) c main_arg10, V9_arg m (outs m) c main_arg11, outs_layer3, V9_gid,
    layer3_value, layer2_value, layer1_value]
  rfl

end Cert.KernelIdeal.Hand

end
-- ==== Proof.RefCut.lean ====
import proofs.«431499_j78546361909690_1_alg».proof.Proof.RefRun

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- Operations a+1 to a+n of the program. -/
def seg (a n : Nat) : List (HloOp τ sig (Elt F)) :=
  ((ValueP.ops (F := F)).zipIdx.filter fun p => a ≤ p.2 ∧ p.2 < a + n).map Prod.fst

/-- Eight stretches: norm column, (features, dense layer) three times, readout. -/
theorem ops_cut : ValueP.ops (F := F)
    = seg 0 17 ++ (seg 17 35 ++ (seg 52 7 ++ (seg 59 35 ++ (seg 94 7 ++ (seg 101 35 ++ (seg 136 7 ++ seg 143 20)))))) := rfl

/-- Operation i assigns reference number 12 + i and no other. -/
theorem writes_idx : ∀ p ∈ (ValueP.ops (F := F)).zipIdx, ∀ r : Ref sig .tc,
    Proc.devRef (τ := τ) .tc r ∈ p.1.writes → r.idx.val = p.2 + 12 := by
  simp only [List.zipIdx_cons, List.zipIdx_nil, List.forall_mem_cons, nullary_writes, unary_writes, binary_writes, ternary_writes,
    nary_writes, Finset.mem_singleton, (Proc.devRef_injective _).eq_iff, forall_eq, List.not_mem_nil, false_imp_iff, implies_true,
    and_true]
  repeat' apply And.intro
  all_goals rfl

/-- A stretch leaves unchanged every reference numbered outside it. -/
theorem keeps (a n : Nat) (W : Valuation τ sig (Elt F)) (r : Ref sig .tc) (hr : r.idx.val < a + 12 ∨ a + n + 12 ≤ r.idx.val) :
    after (seg (F := F) a n) W (no_index (Proc.devRef .tc r)) = W (Proc.devRef .tc r) :=
  after_of_forall_not_mem _ _ fun op ho hb => by
    obtain ⟨p, hp, rfl⟩ := List.mem_map.mp ho
    have h1 := writes_idx p (List.mem_filter.mp hp).1 r hb
    have h2 := of_decide_eq_true (List.mem_filter.mp hp).2
    omega

end Cert.ReferenceIdeal.Hand

end
-- ==== Proof.RefSide.lean ====
import proofs.«431499_j78546361909690_1_alg».proof.Proof.Gen.ReferenceIdeal
import proofs.«431499_j78546361909690_1_alg».proof.Proof.Spec
import proofs.«431499_j78546361909690_1_alg».proof.Proof.LibPlainDot
import Idealize.ShloMosaic.PureOps.Ideal.Laws
import Idealize.ShloMosaic.Lib.ValueIdx
import Idealize.ShloMosaic.Lib.Pipeline.Value
import Idealize.ShloMosaic.Lib.ValueLayout
import Idealize.ShloMosaic.Lib.IdealHost
import Idealize.ShloMosaic.Lib.KernelVsHost

noncomputable section

namespace Cert.ReferenceIdeal.Hand

open Cert.ReferenceIdeal Cert.ReferenceIdeal.Gen Idealize.ShloMosaic Idealize.ShloMosaic.TcCoe Idealize.SL.Sem Idealize.ShloMosaic.StableHlo Idealize.ShloMosaic.ValueIdx
variable {F : FTy → Type} [FloatOps F]

/-- In-degrees: a one added at each edge's destination. -/
def degR (dst : IVec S800000 32) : FVec F S50000 .f32 :=
  Host.scatterAdd scatter_S50000_S800000x1_S800000_n_0_0_1 (broadcastInDim S50000 ![] bcast_S_S50000 (constant S_ .f32 0x00000000#32)) (broadcastInDim S800000x1 ![0] bcast_S800000_S800000x1_0 dst) (broadcastInDim S800000 ![] bcast_S_S800000 (constant S_ .f32 0x3F800000#32))

/-- The degree, at least one, to the power −1/2, as a column. -/
def normR (dst : IVec S800000 32) : FVec F S50000x1 .f32 :=
  broadcastInDim S50000x1 ![0] bcast_S50000_S50000x1_0 (Host.powf (select (cmpf (F := F) .olt (degR (F := F) dst) (broadcastInDim S50000 ![] bcast_S_S50000 (constant S_ .f32 0x3F800000#32))) (broadcastInDim S50000 ![] bcast_S_S50000 (id (constant S_ .f32 0x3F800000#32))) (degR (F := F) dst)) (broadcastInDim S50000 ![] bcast_S_S50000 (constant S_ .f32 0xBF000000#32)))

/-- Source indices, negatives shifted up by the node count, as a column. -/
def wrapR (src : IVec S800000 32) : IVec S800000x1 32 :=
  broadcastInDim S800000x1 ![0] bcast_S800000_S800000x1_0 (select (cmpi .slt src (broadcastInDim S800000 ![] bcast_S_S800000 (constantI S_ 32 0#32))) (addi src (broadcastInDim S800000 ![] bcast_S_S800000 (constantI S_ 32 50000#32))) src)

/-- One propagation step h ↦ D^(−1/2) A D^(−1/2) h: scale, gather by src, add up by dst, scale. -/
def hopR (h : FVec F S50000x128 .f32) (nrm : FVec F S50000x1 .f32) (src dst : IVec S800000 32) : FVec F S50000x128 .f32 :=
  mulf (Host.scatterAdd scatter_S50000x128_S800000x1_S800000x128_1_0_0_1 (broadcastInDim S50000x128 ![] bcast_S_S50000x128 (constant S_ .f32 0x00000000#32)) (broadcastInDim S800000x1 ![0] bcast_S800000_S800000x1_0 dst) (Host.gather gather_S50000x128_S800000x1_S800000x128_1_0_n_n_0_1_1128 (mulf h (broadcastInDim S50000x128 ![0, 1] bcast_S50000x1_S50000x128_0_1 nrm)) (wrapR src))) (broadcastInDim S50000x128 ![0, 1] bcast_S50000x1_S50000x128_0_1 nrm)

/-- [h, hop h, hop (hop h)] side by side. -/
def featsR (h : FVec F S50000x128 .f32) (nrm : FVec F S50000x1 .f32) (src dst : IVec S800000 32) : FVec F S50000x384 .f32 :=
  concatenate S50000x384 1 [⟨S50000x128, h⟩, ⟨S50000x128, hopR h nrm src dst⟩, ⟨S50000x128, hopR (hopR h nrm src dst) nrm src dst⟩] concatenates_S50000x128_S50000x128_S50000x128_S50000x384_d1

/-- relu (f · W + b). -/
def linR (f : FVec F S50000x384 .f32) (w : FVec F S384x128 .f32) (b : FVec F S128 .f32) : FVec F S50000x128 .f32 :=
  maximumf (addf (Host.dotGeneral dot_S50000x384_S384x128_S50000x128_1_0_0_1_n_n none f w) (broadcastInDim S50000x128 ![0, 1] bcast_S1x128_S50000x128_0_1 (broadcastInDim S1x128 ![1] bcast_S128_S1x128_1 b))) (broadcastInDim S50000x128 ![] bcast_S_S50000x128 (constant S_ .f32 0x00000000#32))

/-- Per-graph sums of the rows of h. -/
def poolR (h : FVec F S50000x128 .f32) (gid : IVec S50000 32) : FVec F S128x128 .f32 :=
  Host.scatterAdd scatter_S128x128_S50000x1_S50000x128_1_0_0_1 (broadcastInDim S128x128 ![] bcast_S_S128x128 (constant S_ .f32 0x00000000#32)) (broadcastInDim S50000x1 ![0] bcast_S50000_S50000x1_0 gid) h

/-- Per-graph node counts. -/
def cntR (gid : IVec S50000 32) : FVec F S128 .f32 :=
  Host.scatterAdd scatter_S128_S50000x1_S50000_n_0_0_1 (broadcastInDim S128 ![] bcast_S_S128 (constant S_ .f32 0x00000000#32)) (broadcastInDim S50000x1 ![0] bcast_S50000_S50000x1_0 gid) (broadcastInDim S50000 ![] bcast_S_S50000 (constant S_ .f32 0x3F800000#32))

/-- Per-graph mean of h, then the classifier (wc, bc). -/
def readoutR (h : FVec F S50000x128 .f32) (gid : IVec S50000 32) (wc : FVec F S128x10 .f32) (bc : FVec F S10 .f32) : FVec F S128x10 .f32 :=
  addf (Host.dotGeneral dot_S128x128_S128x10_S128x10_1_0_0_1_n_n none (Host.divf (poolR h gid) (broadcastInDim S128x128 ![0, 1] bcast_S128x1_S128x128_0_1 (broadcastInDim S128x1 ![0] bcast_S128_S128x1_0 (maximumf (cntR (F := F) gid) (broadcastInDim S128 ![] bcast_S_S128 (constant S_ .f32 0x3F800000#32)))))) wc) (broadcastInDim S128x10 ![0, 1] bcast_S1x10_S128x10_0_1 (broadcastInDim S1x10 ![1] bcast_S10_S1x10_1 bc))

/-- x < n gives x = (if n = 1 then 0 else x). -/
theorem val_eq_ite {n : Nat} (x : Fin n) : x.val = if n = 1 then 0 else x.val := by
  split
  · have := x.isLt; omega
  · rfl

/-- Entry (r, c) of a vector repeated down the rows is its entry c. -/
theorem bias_apply {α : Type} {m n : Nat} (h1 : (⟨1, ![n]⟩ : Shape).BroadcastsInDim ⟨2, ![1, n]⟩ ![1])
    (h2 : (⟨2, ![1, n]⟩ : Shape).BroadcastsInDim ⟨2, ![m, n]⟩ ![0, 1]) (b : (⟨1, ![n]⟩ : Shape).Idx → α) (r : Fin m) (c : Fin n) :
    broadcastInDim ⟨2, ![m, n]⟩ ![0, 1] h2 (broadcastInDim ⟨2, ![1, n]⟩ ![1] h1 b) (ix2 r c) = b (ix1 c) :=
  (broadcastInDim_oneRow_apply h2 _ r c).trans
    (broadcastInDim_apply _ h1 b _ (ix1 c) fun a => match a with | ⟨0, _⟩ => val_eq_ite c)

/-- Entry (i, 0) of a vector made a column is its entry i. -/
theorem col_apply {α : Type} {n : Nat} (h : (⟨1, ![n]⟩ : Shape).BroadcastsInDim ⟨2, ![n, 1]⟩ ![0])
    (y : (⟨1, ![n]⟩ : Shape).Idx → α) (i : Fin n) :
    broadcastInDim ⟨2, ![n, 1]⟩ ![0] h y (ix2 i (0 : Fin 1)) = y (ix1 i) :=
  broadcastInDim_apply _ h y _ (ix1 i) fun a => match a with | ⟨0, _⟩ => val_eq_ite i

theorem splat_zero_apply {T : Shape} (hb : S_.BroadcastsInDim T ![]) (i : T.Idx) :
    broadcastInDim T ![] hb (constant (F := Ideal) S_ .f32 0x00000000#32) i = (0 : EReal) :=
  (broadcastInDim_scalar_apply hb _ i).trans Ideal.ofBits_zero_f32

theorem splat_one_apply {T : Shape} (hb : S_.BroadcastsInDim T ![]) (i : T.Idx) :
    broadcastInDim T ![] hb (constant (F := Ideal) S_ .f32 0x3F800000#32) i = (1 : EReal) :=
  (broadcastInDim_scalar_apply hb _ i).trans Ideal.ofBits_one_f32

/-- The dense layer equals the specification's, entry by entry. -/
theorem ref_layer (f : FVec Ideal S50000x384 .f32) (w : FVec Ideal S384x128 .f32) (b : FVec Ideal S128 .f32) :
    linR (F := Ideal) f w b = Cert.Spec.linSpec f w b := by
  funext i
  obtain ⟨r, c, rfl⟩ : ∃ r c, i = ix2 r c := ⟨i 0, i 1, eq_ix2 i⟩
  rw [Cert.Spec.linSpec_ix2]
  unfold linR Cert.Spec.linAt
  rw [maximumf_apply, addf_apply, bias_apply, splat_zero_apply]
  have hd : dot_S50000x384_S384x128_S50000x128_1_0_0_1_n_n = DotDims.plain 50000 384 128 := rfl
  simp only [Host.dotGeneral]
  rw [hd, Cert.Lib.PlainDot.dotGeneral_plain_ix2]

end Cert.ReferenceIdeal.Hand

end
-- ==== Proof.RefHops.lean ====
import proofs.«431499_j78546361909690_1_alg».proof.Proof.RefCut
import proofs.«431499_j78546361909690_1_alg».proof.Proof.RefSide
import proofs.«431499_j78546361909690_1_alg».proof.Proof.LibNary3

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- Operations 18 to 52, 60 to 94 and 102 to 136 each compute featsR of their layer's input. -/
theorem feats_stage (W : Valuation τ sig (Elt F)) :
    after (seg (F := F) 17 35) W (no_index (Proc.devRef .tc main_v38)) = featsR (W (Proc.devRef .tc main_arg0)) (W (Proc.devRef .tc main_v9)) (W (Proc.devRef .tc main_arg1)) (W (Proc.devRef .tc main_arg2))
    ∧ after (seg (F := F) 59 35) W (no_index (Proc.devRef .tc main_v72)) = featsR (W (Proc.devRef .tc main_v43)) (W (Proc.devRef .tc main_v9)) (W (Proc.devRef .tc main_arg1)) (W (Proc.devRef .tc main_arg2))
    ∧ after (seg (F := F) 101 35) W (no_index (Proc.devRef .tc main_v106)) = featsR (W (Proc.devRef .tc main_v77)) (W (Proc.devRef .tc main_v9)) (W (Proc.devRef .tc main_arg1)) (W (Proc.devRef .tc main_arg2)) := by
  refine ⟨?_, ?_, ?_⟩ <;>
  · show after [_, _, _, _, _, _, _, _, _, _, _, _, _, _, _, _, _, _, _, _, _, _, _, _, _, _, _, _, _, _, _, _, _, _, _] W _ = _
    simp (disch := decide) only [after_cons, after_nil, nullary_result', unary_result', binary_result', ternary_result', nary3_result',
      nullary_result_ne', unary_result_ne', binary_result_ne', ternary_result_ne', nary_result_ne']
    rfl

end Cert.ReferenceIdeal.Hand

end
-- ==== Proof.RefStages.lean ====
import proofs.«431499_j78546361909690_1_alg».proof.Proof.RefHops

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- Operations 1 to 17 compute the norm column from dst. -/
theorem norm_stage (W : Valuation τ sig (Elt F)) :
    after (seg (F := F) 0 17) W (no_index (Proc.devRef .tc main_v9)) = normR (F := F) (W (Proc.devRef .tc main_arg2)) := by
  show after [_, _, _, _, _, _, _, _, _, _, _, _, _, _, _, _, _] W _ = _
  after_results_simp
  rfl

/-- Operations 53 to 59, 95 to 101 and 137 to 143 each compute linR of the feature matrix just before them. -/
theorem lin_stage (W : Valuation τ sig (Elt F)) :
    after (seg (F := F) 52 7) W (no_index (Proc.devRef .tc main_v43)) = linR (W (Proc.devRef .tc main_v38)) (W (Proc.devRef .tc main_arg4)) (W (Proc.devRef .tc main_arg5))
    ∧ after (seg (F := F) 94 7) W (no_index (Proc.devRef .tc main_v77)) = linR (W (Proc.devRef .tc main_v72)) (W (Proc.devRef .tc main_arg6)) (W (Proc.devRef .tc main_arg7))
    ∧ after (seg (F := F) 136 7) W (no_index (Proc.devRef .tc main_v111)) = linR (W (Proc.devRef .tc main_v106)) (W (Proc.devRef .tc main_arg8)) (W (Proc.devRef .tc main_arg9)) := by
  refine ⟨?_, ?_, ?_⟩ <;>
  · show after [_, _, _, _, _, _, _] W _ = _
    after_results_simp
    rfl

/-- Operations 144 to 163 compute readoutR of the third layer's output. -/
theorem readout_stage (W : Valuation τ sig (Elt F)) :
    after (seg (F := F) 143 20) W (no_index (Proc.devRef .tc main_v127))
      = readoutR (W (Proc.devRef .tc main_v111)) (W (Proc.devRef .tc main_arg3)) (W (Proc.devRef .tc main_arg10)) (W (Proc.devRef .tc main_arg11)) := by
  show after [_, _, _, _, _, _, _, _, _, _, _, _, _, _, _, _, _, _, _, _] W _ = _
  after_results_simp
  rfl

end Cert.ReferenceIdeal.Hand

end
-- ==== Proof.LibScatterRows.lean ====
import Idealize.ShloMosaic.PureOps.Ideal.Laws
import Idealize.ShloMosaic.Lib.ValueIdxRank1

noncomputable section

namespace Cert.Lib.ScatterRows

open Idealize.ShloMosaic Idealize.ShloMosaic.ValueIdx

/-- For 2g < 2^w, a w-bit word's signed value is g iff the word is g's. -/
theorem toInt_eq_natCast_iff {w : Nat} (x : BitVec w) (g : Nat) (hg : 2 * g < 2 ^ w) :
    x.toInt = (g : Int) ↔ x = BitVec.ofNat w g := by
  have := x.isLt
  rw [BitVec.toInt_eq_toNat_cond, ← BitVec.toNat_inj, BitVec.toNat_ofNat, Nat.mod_eq_of_lt (by omega)]
  split <;> omega

/-- An update lands on i iff start + window coordinate = i's coordinate on every axis. -/
theorem lands_iff {s si u : Shape} (d : ScatterDims s si u) {w : Nat} (j : u.Idx) (idx : IVec si w) (i : s.Idx) :
    d.resultIdx? j idx = some i ↔ ∀ a, d.start j idx a + d.window j a = ((i a).val : Int) := by
  unfold ScatterDims.resultIdx?
  split
  · next h =>
    rw [Option.some.injEq, funext_iff]
    exact forall_congr' fun a => by
      rw [Fin.ext_iff]; show (d.start j idx a + d.window j a).toNat = (i a).val ↔ _; have := h a; omega
  · next h =>
    exact iff_of_false (by simp) fun h' => h fun a => by rw [h' a]; have := (i a).isLt; omega

/-- Summing over rank-1 indices is summing over Fin n. -/
theorem sum_idx1 {M : Type*} [AddCommMonoid M] {n : Nat} (f : (⟨1, ![n]⟩ : Shape).Idx → M) :
    ∑ i, f i = ∑ a : Fin n, f (ix1 a) := by
  rw [← Equiv.sum_comp idxEquiv1.symm f]
  rfl

variable {G D N w : Nat}

/-- N rows of width D added into a G × D array at the rows a column of N indices names. -/
abbrev rowsDims (G D N : Nat) (wf : ScatterDims.WF ⟨2, ![G, D]⟩ ⟨2, ![N, 1]⟩ ⟨2, ![N, D]⟩ [1] [0] [0] 1) :
    ScatterDims ⟨2, ![G, D]⟩ ⟨2, ![N, 1]⟩ ⟨2, ![N, D]⟩ := ⟨[1], [0], [0], 1, wf⟩

section Rows
variable (wf : ScatterDims.WF ⟨2, ![G, D]⟩ ⟨2, ![N, 1]⟩ ⟨2, ![N, D]⟩ [1] [0] [0] 1)
  (idx : IVec ⟨2, ![N, 1]⟩ w) (n : Fin N) (k : Fin D)

theorem rows_start_row : (rowsDims G D N wf).start (ix2 n k) idx 0 = (idx (ix2 n 0)).toInt := by
  unfold ScatterDims.start
  rw [dif_pos (show (0 : Fin 2) ∈ (rowsDims G D N wf).scatterDimsToOperandDims from List.mem_singleton.mpr rfl)]
  exact congrArg (fun q => (idx q).toInt) (funext fun b => Fin.ext (match b with | ⟨0, _⟩ => rfl | ⟨1, _⟩ => rfl))

/-- (n, k) lands on (g, c) iff index n is g's word and k = c. -/
theorem rows_lands_iff (hG : 2 * G ≤ 2 ^ w) (g : Fin G) (c : Fin D) :
    (rowsDims G D N wf).resultIdx? (ix2 n k) idx = some (ix2 g c) ↔ idx (ix2 n 0) = BitVec.ofNat w g.val ∧ k = c := by
  have hg : 2 * g.val < 2 ^ w := by have := g.isLt; omega
  rw [lands_iff, Fin.forall_fin_two, rows_start_row, ← toInt_eq_natCast_iff _ _ hg, Fin.ext_iff]
  show _ + ((0 : Nat) : Int) = (g.val : Int) ∧ (0 : Int) + (k.val : Int) = (c.val : Int) ↔ _
  omega

/-- Entry (g, c) of the result: x (g, c) plus column c of every update row whose index is g's word. -/
theorem rows_scatterAdd_apply (hG : 2 * G ≤ 2 ^ w) (x : (⟨2, ![G, D]⟩ : Shape).Idx → EReal)
    (upd : (⟨2, ![N, D]⟩ : Shape).Idx → EReal) (g : Fin G) (c : Fin D) :
    Ideal.hostScatterAdd (rowsDims G D N wf) x idx upd (ix2 g c)
      = x (ix2 g c) + ∑ m : Fin N, if idx (ix2 m 0) = BitVec.ofNat w g.val then upd (ix2 m c) else 0 := by
  unfold Ideal.hostScatterAdd
  refine congrArg (x (ix2 g c) + ·) ?_
  rw [Finset.sum_filter, sum_idx2]
  refine Finset.sum_congr rfl fun m _ => ?_
  simp only [rows_lands_iff wf idx _ _ hG]
  by_cases hw : idx (ix2 m 0) = BitVec.ofNat w g.val
  · simp only [hw, true_and, Finset.sum_ite_eq', Finset.mem_univ, if_true]
  · simp only [hw, false_and, if_false, Finset.sum_const_zero]

end Rows

/-- N single elements added into a length-G vector at the places a column of N indices names. -/
abbrev countDims (G N : Nat) (wf : ScatterDims.WF ⟨1, ![G]⟩ ⟨2, ![N, 1]⟩ ⟨1, ![N]⟩ [] [0] [0] 1) :
    ScatterDims ⟨1, ![G]⟩ ⟨2, ![N, 1]⟩ ⟨1, ![N]⟩ := ⟨[], [0], [0], 1, wf⟩

section Count
variable (wf : ScatterDims.WF ⟨1, ![G]⟩ ⟨2, ![N, 1]⟩ ⟨1, ![N]⟩ [] [0] [0] 1)
  (idx : IVec ⟨2, ![N, 1]⟩ w) (n : Fin N)

theorem count_start : (countDims G N wf).start (ix1 n) idx 0 = (idx (ix2 n 0)).toInt := by
  unfold ScatterDims.start
  rw [dif_pos (show (0 : Fin 1) ∈ (countDims G N wf).scatterDimsToOperandDims from List.mem_singleton.mpr rfl)]
  exact congrArg (fun q => (idx q).toInt) (funext fun b => Fin.ext (match b with | ⟨0, _⟩ => rfl | ⟨1, _⟩ => rfl))

/-- Element n lands on g iff index n is g's word. -/
theorem count_lands_iff (hG : 2 * G ≤ 2 ^ w) (g : Fin G) :
    (countDims G N wf).resultIdx? (ix1 n) idx = some (ix1 g) ↔ idx (ix2 n 0) = BitVec.ofNat w g.val := by
  have hg : 2 * g.val < 2 ^ w := by have := g.isLt; omega
  rw [lands_iff, Fin.forall_fin_one, count_start, ← toInt_eq_natCast_iff _ _ hg]
  show _ + ((0 : Nat) : Int) = (g.val : Int) ↔ _
  omega

/-- Entry g of the result: x g plus every update element whose index is g's word. -/
theorem count_scatterAdd_apply (hG : 2 * G ≤ 2 ^ w) (x : (⟨1, ![G]⟩ : Shape).Idx → EReal)
    (upd : (⟨1, ![N]⟩ : Shape).Idx → EReal) (g : Fin G) :
    Ideal.hostScatterAdd (countDims G N wf) x idx upd (ix1 g)
      = x (ix1 g) + ∑ m : Fin N, if idx (ix2 m 0) = BitVec.ofNat w g.val then upd (ix1 m) else 0 := by
  unfold Ideal.hostScatterAdd
  refine congrArg (x (ix1 g) + ·) ?_
  rw [Finset.sum_filter, sum_idx1]
  refine Finset.sum_congr rfl fun m _ => ?_
  simp only [count_lands_iff wf idx _ hG]

end Count

end Cert.Lib.ScatterRows

end
-- ==== Proof.RefReadout.lean ====
import proofs.«431499_j78546361909690_1_alg».proof.Proof.RefSide
import proofs.«431499_j78546361909690_1_alg».proof.Proof.LibScatterRows
import Idealize.ShloMosaic.Lib.IdealHost

noncomputable section

namespace Cert.ReferenceIdeal.Hand

open Cert.ReferenceIdeal Cert.ReferenceIdeal.Gen Idealize.ShloMosaic Idealize.ShloMosaic.TcCoe Idealize.SL.Sem Idealize.ShloMosaic.StableHlo Idealize.ShloMosaic.ValueIdx

/-- Entry (g, d) of a vector spread across the columns is its entry g. -/
theorem col_bcast_apply {α : Type} (y : S128.Idx → α) (g d : Fin 128) :
    broadcastInDim S128x128 ![0, 1] bcast_S128x1_S128x128_0_1 (broadcastInDim S128x1 ![0] bcast_S128_S128x1_0 y) (ix2 g d) = y (ix1 g) :=
  (broadcastInDim_apply _ bcast_S128x1_S128x128_0_1 _ (ix2 g d) (ix2 g (0 : Fin 1)) fun a => match a with
    | ⟨0, _⟩ => val_eq_ite g
    | ⟨1, _⟩ => (if_pos rfl).symm).trans (col_apply _ y g)

/-- Entry (g, d) of the pooled array is the sum of h (·, d) over the nodes of graph g. -/
theorem pooled_sum_apply (h : FVec Ideal S50000x128 .f32) (gid : IVec S50000 32) (g d : Fin 128) :
    poolR (F := Ideal) h gid (ix2 g d) = Cert.Spec.segSum h (fun i => gid (ix1 (i 0))) g d := by
  have hd : scatter_S128x128_S50000x1_S50000x128_1_0_0_1
      = Cert.Lib.ScatterRows.rowsDims 128 128 50000 scatter_S128x128_S50000x1_S50000x128_1_0_0_1_wf := rfl
  unfold poolR Host.scatterAdd
  rw [Ideal.hostScatterAdd_def, hd, Cert.Lib.ScatterRows.rows_scatterAdd_apply _ _ (by norm_num), splat_zero_apply, zero_add]
  unfold Cert.Spec.segSum
  refine Finset.sum_congr rfl fun m _ => ?_
  rw [col_apply]

/-- Entry g of the count is the number of nodes of graph g. -/
theorem pooled_count_apply (gid : IVec S50000 32) (g : Fin 128) :
    cntR (F := Ideal) gid (ix1 g) = Cert.Spec.segCnt (fun i => gid (ix1 (i 0))) g := by
  have hd : scatter_S128_S50000x1_S50000_n_0_0_1
      = Cert.Lib.ScatterRows.countDims 128 50000 scatter_S128_S50000x1_S50000_n_0_0_1_wf := rfl
  unfold cntR Host.scatterAdd
  rw [Ideal.hostScatterAdd_def, hd, Cert.Lib.ScatterRows.count_scatterAdd_apply _ _ (by norm_num), splat_zero_apply, zero_add]
  unfold Cert.Spec.segCnt
  refine Finset.sum_congr rfl fun m _ => ?_
  rw [col_apply, splat_one_apply]

/-- The readout equals the specification's: per-graph mean, then the classifier. -/
theorem ref_readout (h : FVec Ideal S50000x128 .f32) (gid : IVec S50000 32) (wc : FVec Ideal S128x10 .f32) (bc : FVec Ideal S10 .f32) :
    readoutR (F := Ideal) h gid wc bc = Cert.Spec.readoutSpec h (fun i => gid (ix1 (i 0))) wc bc := by
  funext i
  obtain ⟨g, j, rfl⟩ : ∃ g j, i = ix2 g j := ⟨i 0, i 1, eq_ix2 i⟩
  rw [Cert.Spec.readoutSpec_ix2]
  unfold readoutR Cert.Spec.readoutAt
  rw [addf_apply, bias_apply]
  have hd : dot_S128x128_S128x10_S128x10_1_0_0_1_n_n = DotDims.plain 128 128 10 := rfl
  simp only [Host.dotGeneral]
  rw [hd, Cert.Lib.PlainDot.dotGeneral_plain_ix2]
  refine congrArg (· + bc (ix1 j)) (Finset.sum_congr rfl fun d _ => ?_)
  rw [hostDivf_apply, pooled_sum_apply, col_bcast_apply, maximumf_apply, pooled_count_apply, splat_one_apply]

end Cert.ReferenceIdeal.Hand

end
-- ==== Proof.RefValue.lean ====
import proofs.«431499_j78546361909690_1_alg».proof.Proof.RefStages
import proofs.«431499_j78546361909690_1_alg».proof.Proof.RefReadout

noncomputable section

namespace Cert.ReferenceIdeal.Hand

open Cert.ReferenceIdeal Cert.ReferenceIdeal.Gen Idealize.ShloMosaic Idealize.ShloMosaic.TcCoe Idealize.SL.Sem Idealize.ShloMosaic.StableHlo Idealize.ShloMosaic.ValueIdx

/-- The reference computes the specification's readout of three dense layers, each on the feature matrix of the layer before. -/
theorem ref_value (m : (ℓ : Loc nD τ sig) → Buf (Elt Ideal) ℓ) (c : Dev nD) :
    ValueP.res_main_v127 (F := Ideal) m c
      = Cert.Spec.readoutSpec
          (Cert.Spec.linSpec (featsR (Cert.Spec.linSpec (featsR (Cert.Spec.linSpec (featsR (m ((c.tc : Thread nD τ).loc main_arg0)) (normR (F := Ideal) (m ((c.tc : Thread nD τ).loc main_arg2))) (m ((c.tc : Thread nD τ).loc main_arg1)) (m ((c.tc : Thread nD τ).loc main_arg2))) (m ((c.tc : Thread nD τ).loc main_arg4)) (m ((c.tc : Thread nD τ).loc main_arg5))) (normR (F := Ideal) (m ((c.tc : Thread nD τ).loc main_arg2))) (m ((c.tc : Thread nD τ).loc main_arg1)) (m ((c.tc : Thread nD τ).loc main_arg2))) (m ((c.tc : Thread nD τ).loc main_arg6)) (m ((c.tc : Thread nD τ).loc main_arg7))) (normR (F := Ideal) (m ((c.tc : Thread nD τ).loc main_arg2))) (m ((c.tc : Thread nD τ).loc main_arg1)) (m ((c.tc : Thread nD τ).loc main_arg2))) (m ((c.tc : Thread nD τ).loc main_arg8)) (m ((c.tc : Thread nD τ).loc main_arg9)))
          (fun i => (m ((c.tc : Thread nD τ).loc main_arg3) : IVec S50000 32) (ix1 (i 0))) (m ((c.tc : Thread nD τ).loc main_arg10)) (m ((c.tc : Thread nD τ).loc main_arg11)) := by
  unfold ValueP.res_main_v127
  rw [ops_cut]
  simp (disch := decide) only [after_append, readout_stage, lin_stage, feats_stage, norm_stage, keeps, ref_readout, ref_layer]

end Cert.ReferenceIdeal.Hand

end
-- ==== Proof.lean ====
import proofs.«431499_j78546361909690_1_alg».proof.Defs
import proofs.«431499_j78546361909690_1_alg».proof.Proof.Gen.Kernel
import proofs.«431499_j78546361909690_1_alg».proof.Proof.Gen.KernelIdeal
import proofs.«431499_j78546361909690_1_alg».proof.Proof.Gen.ReferenceIdeal
import proofs.«431499_j78546361909690_1_alg».proof.Proof.Gen.Pre_finite_inputs
import proofs.«431499_j78546361909690_1_alg».proof.Proof.K.Run
import proofs.«431499_j78546361909690_1_alg».proof.Proof.KI.Run
import proofs.«431499_j78546361909690_1_alg».proof.Proof.KI.KernelValue
import proofs.«431499_j78546361909690_1_alg».proof.Proof.RefRun
import proofs.«431499_j78546361909690_1_alg».proof.Proof.RefValue
import Idealize.ShloMosaic.Adequacy
import Idealize.ShloMosaic.Init

noncomputable section

namespace Cert.Proof

open Idealize.ShloMosaic Idealize.ShloMosaic.TcCoe Idealize.SL.Sem

-- The degree-norm column and a layer's hop features are computed by the same host operations in both programs.
theorem norm_same {F : FTy → Type} [FloatOps F] (dst : IVec Cert.KernelIdeal.S800000 32) :
    Cert.KernelIdeal.Hand.normK (F := F) dst = Cert.ReferenceIdeal.Hand.normR (F := F) dst := rfl

theorem feats_same {F : FTy → Type} [FloatOps F] (h : FVec F Cert.KernelIdeal.S50000x128 .f32)
    (nrm : FVec F Cert.KernelIdeal.S50000x1 .f32) (src dst : IVec Cert.KernelIdeal.S800000 32) :
    Cert.KernelIdeal.Hand.featsK (F := F) h nrm src dst = Cert.ReferenceIdeal.Hand.featsR (F := F) h nrm src dst := rfl

theorem frame_k : Cert.frame_Kernel := fun m ρ _ =>
  (θ_run (Cert.Kernel.defs (F := Bits)) _ _).mono (fun _ h c => (h c).2) (Cert.Kernel.Hand.run (F := Bits) m ρ)

theorem frame_ki : Cert.frame_KernelIdeal := fun m ρ _ =>
  (θ_run (Cert.KernelIdeal.defs (F := Ideal)) _ _).mono (fun _ h c => (h c).2) (Cert.KernelIdeal.Hand.run (F := Ideal) m ρ)

theorem frame_ri : Cert.frame_ReferenceIdeal := fun m ρ _ =>
  (θ_run (Cert.ReferenceIdeal.defs (F := Ideal)) _ _).mono (fun _ h c => (h c).2) (Cert.ReferenceIdeal.ValueP.run (F := Ideal) m ρ)

-- Both results are the classifier of the mean readout of three layers relu (features · W + b) of the same arguments.
theorem algebraic : Cert.algebraic_KernelIdeal_ReferenceIdeal := by
  intro m ρ m' ρ' _ hagree
  refine ⟨Cert.KernelIdeal.Hand.o10 (F := Ideal) m, Cert.KernelIdeal.Hand.run (F := Ideal) m ρ, ?_⟩
  refine (θ_run (Cert.ReferenceIdeal.defs (F := Ideal)) _ _).mono (fun _ h c => ⟨(h c).1.trans ?_, (h c).2⟩)
    (Cert.ReferenceIdeal.ValueP.run (F := Ideal) m' ρ')
  obtain ⟨h0, h1, h2, h3, h4, h5, h6, h7, h8, h9, h10, h11⟩ := hagree c
  rw [Cert.ReferenceIdeal.Hand.ref_value m' c, Cert.KernelIdeal.Hand.kernel_value m c, h0, h1, h2, h3, h4, h5, h6, h7, h8, h9, h10, h11]
  simp only [norm_same, feats_same]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
